-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v486) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x192 : Shape := ⟨4, ![8, 128, 128, 192]⟩
abbrev S_ : Shape := ⟨0, ![]⟩

class Facts : Prop where
  bcast_S_S8x128x128x192 : S_.BroadcastsInDim S8x128x128x192 (![] : Fin 0 → Fin S8x128x128x192.rank)
  reducesTo_S8x128x128x192_S_d0_1_2_3 : S8x128x128x192.ReducesTo [0, 1, 2, 3] S_
  h_S_ : 0 < S_.numel

variable [Facts]

def fn {F : FTy → Type} [FloatOps F] (main_arg0 : FVec F S8x128x128x192 .f32) (main_arg1 : FVec F S8x128x128x192 .f32) : IVec S_ 1 :=
  let main_v0 : FVec F S8x128x128x192 .f32 := Host.absf main_arg0
  let main_cst : FVec F S_ .f32 := constant S_ .f32 0x7F800000#32
  let main_v1 : FVec F S8x128x128x192 .f32 := broadcastInDim S8x128x128x192 ![] bcast_S_S8x128x128x192 main_cst
  let main_v2 : IVec S8x128x128x192 1 := cmpf .olt main_v0 main_v1
  let main_c : IVec S_ 1 := constantI S_ 1 1#1
  let main_v3 : IVec S_ 1 := (fun x v => Host.reduce IntOp.andi x v reducesTo_S8x128x128x192_S_d0_1_2_3 h_S_) main_v2 main_c
  let main_v4 : FVec F S8x128x128x192 .f32 := Host.absf main_arg1
  let main_cst_0 : FVec F S_ .f32 := constant S_ .f32 0x7F800000#32
  let main_v5 : FVec F S8x128x128x192 .f32 := broadcastInDim S8x128x128x192 ![] bcast_S_S8x128x128x192 main_cst_0
  let main_v6 : IVec S8x128x128x192 1 := cmpf .olt main_v4 main_v5
  let main_c_1 : IVec S_ 1 := constantI S_ 1 1#1
  let main_v7 : IVec S_ 1 := (fun x v => Host.reduce IntOp.andi x v reducesTo_S8x128x128x192_S_d0_1_2_3 h_S_) main_v6 main_c_1
  let main_v8 : IVec S_ 1 := andi main_v3 main_v7
  main_v8
-- ==== Kernel.lean ====
abbrev S8x128x128x192 : Shape := ⟨4, ![8, 128, 128, 192]⟩
abbrev S_ : Shape := ⟨0, ![]⟩
abbrev S8x128x136x200 : Shape := ⟨4, ![8, 128, 136, 200]⟩
abbrev S8x80x128x192 : Shape := ⟨4, ![8, 80, 128, 192]⟩
abbrev S1x128x16x192 : Shape := ⟨4, ![1, 128, 16, 192]⟩
abbrev S1x128x16x200 : Shape := ⟨4, ![1, 128, 16, 200]⟩
abbrev S1x128x8x200 : Shape := ⟨4, ![1, 128, 8, 200]⟩
abbrev S1x80x16x192 : Shape := ⟨4, ![1, 80, 16, 192]⟩
abbrev S128x24x200 : Shape := ⟨3, ![128, 24, 200]⟩
abbrev S128x16x200 : Shape := ⟨3, ![128, 16, 200]⟩
abbrev S128x8x200 : Shape := ⟨3, ![128, 8, 200]⟩
abbrev S128x16x192 : Shape := ⟨3, ![128, 16, 192]⟩
abbrev S16x192 : Shape := ⟨2, ![16, 192]⟩
abbrev S1x1x16x192 : Shape := ⟨4, ![1, 1, 16, 192]⟩

abbrev nBuf : Space → Nat
  | .hbm => 6
  | .vmem => 9
  | .smem => 0
  | _ => 0

abbrev bufTy : (tb : Table) → Fin (tcTables nBuf tb) → BufTy
  | .hbm, ⟨0, _⟩ => ⟨S8x128x128x192, .f32⟩
  | .hbm, ⟨1, _⟩ => ⟨S8x128x128x192, .f32⟩
  | .hbm, ⟨2, _⟩ => ⟨S_, .i32⟩
  | .hbm, ⟨3, _⟩ => ⟨S_, .f32⟩
  | .hbm, ⟨4, _⟩ => ⟨S8x128x136x200, .f32⟩
  | .hbm, ⟨5, _⟩ => ⟨S8x80x128x192, .f32⟩
  | .local _ .vmem, ⟨0, _⟩ => ⟨S1x128x16x192, .f32⟩
  | .local _ .vmem, ⟨1, _⟩ => ⟨S1x128x16x192, .f32⟩
  | .local _ .vmem, ⟨2, _⟩ => ⟨S1x128x16x200, .f32⟩
  | .local _ .vmem, ⟨3, _⟩ => ⟨S1x128x16x200, .f32⟩
  | .local _ .vmem, ⟨4, _⟩ => ⟨S1x128x8x200, .f32⟩
  | .local _ .vmem, ⟨5, _⟩ => ⟨S1x128x8x200, .f32⟩
  | .local _ .vmem, ⟨6, _⟩ => ⟨S1x80x16x192, .f32⟩
  | .local _ .vmem, ⟨7, _⟩ => ⟨S1x80x16x192, .f32⟩
  | .local _ .vmem, ⟨8, _⟩ => ⟨S128x24x200, .f32⟩
  | _, _ => ⟨S8x128x128x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c0_i32 : BitVec 32 := 0#32
  let c0_i32_0 : BitVec 32 := 0#32
  let c0_i32_1 : BitVec 32 := 0#32
  ![arg0.toNat, c0_i32.toNat, v1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x16x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x8x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x80x16x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8x128x128x192_S8x128x136x200_000_000_440_440 : S8x128x128x192.Pads (![0, 0, 4, 4] : Fin 4 → Nat) ![0, 0, 4, 4] ![0, 0, 0, 0] S8x128x136x200
  h_S_ : 0 < S_.numel
  inb_S1x128x16x200_S1x128x16x200_0_0_0_0 : ∀ a, (![0, 0, 0, 0] : Fin 4 → Nat) a + S1x128x16x200.size a ≤ S1x128x16x200.size a
  h_S1x128x16x200 : 0 < S1x128x16x200.numel
  shapeCasts_S1x128x16x200_S128x16x200 : S1x128x16x200.ShapeCasts S128x16x200
  inb_S128x24x200_S128x16x200_0_0_0 : ∀ a, (![0, 0, 0] : Fin 3 → Nat) a + S128x16x200.size a ≤ S128x24x200.size a
  h_S128x16x200 : 0 < S128x16x200.numel
  shapeCasts_S128x16x200_S128x16x200 : S128x16x200.ShapeCasts S128x16x200
  inb_S1x128x8x200_S1x128x8x200_0_0_0_0 : ∀ a, (![0, 0, 0, 0] : Fin 4 → Nat) a + S1x128x8x200.size a ≤ S1x128x8x200.size a
  h_S1x128x8x200 : 0 < S1x128x8x200.numel
  shapeCasts_S1x128x8x200_S128x8x200 : S1x128x8x200.ShapeCasts S128x8x200
  inb_S128x24x200_S128x8x200_0_16_0 : ∀ a, (![0, 16, 0] : Fin 3 → Nat) a + S128x8x200.size a ≤ S128x24x200.size a
  h_S128x8x200 : 0 < S128x8x200.numel
  shapeCasts_S128x8x200_S128x8x200 : S128x8x200.ShapeCasts S128x8x200
  inb_S1x128x16x192_S1x128x16x192_0_0_0_0 : ∀ a, (![0, 0, 0, 0] : Fin 4 → Nat) a + S1x128x16x192.size a ≤ S1x128x16x192.size a
  h_S1x128x16x192 : 0 < S1x128x16x192.numel
  shapeCasts_S1x128x16x192_S128x16x192 : S1x128x16x192.ShapeCasts S128x16x192
  inb_S128x24x200_S128x16x192_0_0_0 : ∀ a, (![0, 0, 0] : Fin 3 → Nat) a + S128x16x192.size a ≤ S128x24x200.size a
  h_S128x16x192 : 0 < S128x16x192.numel
  reduces_S128x16x192_S16x192 : S128x16x192.Reduces [0] S16x192
  inb_S1x80x16x192_S1x1x16x192_0_0_0_0 : ∀ a, (![0, 0, 0, 0] : Fin 4 → Nat) a + S1x1x16x192.size a ≤ S1x80x16x192.size a
  h_S1x1x16x192 : 0 < S1x1x16x192.numel
  shapeCasts_S1x1x16x192_S16x192 : S1x1x16x192.ShapeCasts S16x192
  shapeCasts_S16x192_S1x1x16x192 : S16x192.ShapeCasts S1x1x16x192
  inb_S128x24x200_S128x16x192_0_0_1 : ∀ a, (![0, 0, 1] : Fin 3 → Nat) a + S128x16x192.size a ≤ S128x24x200.size a
  inb_S1x80x16x192_S1x1x16x192_0_1_0_0 : ∀ a, (![0, 1, 0, 0] : Fin 4 → Nat) a + S1x1x16x192.size a ≤ S1x80x16x192.size a
  inb_S128x24x200_S128x16x192_0_0_2 : ∀ a, (![0, 0, 2] : Fin 3 → Nat) a + S128x16x192.size a ≤ S128x24x200.size a
  inb_S1x80x16x192_S1x1x16x192_0_2_0_0 : ∀ a, (![0, 2, 0, 0] : Fin 4 → Nat) a + S1x1x16x192.size a ≤ S1x80x16x192.size a
  inb_S128x24x200_S128x16x192_0_0_3 : ∀ a, (![0, 0, 3] : Fin 3 → Nat) a + S128x16x192.size a ≤ S128x24x200.size a
  inb_S1x80x16x192_S1x1x16x192_0_3_0_0 : ∀ a, (![0, 3, 0, 0] : Fin 4 → Nat) a + S1x1x16x192.size a ≤ S1x80x16x192.size a
  inb_S128x24x200_S128x16x192_0_0_4 : ∀ a, (![0, 0, 4] : Fin 3 → Nat) a + S128x16x192.size a ≤ S128x24x200.size a
  inb_S1x80x16x192_S1x1x16x192_0_4_0_0 : ∀ a, (![0, 4, 0, 0] : Fin 4 → Nat) a + S1x1x16x192.size a ≤ S1x80x16x192.size a
  inb_S128x24x200_S128x16x192_0_0_5 : ∀ a, (![0, 0, 5] : Fin 3 → Nat) a + S128x16x192.size a ≤ S128x24x200.size a
  inb_S1x80x16x192_S1x1x16x192_0_5_0_0 : ∀ a, (![0, 5, 0, 0] : Fin 4 → Nat) a + S1x1x16x192.size a ≤ S1x80x16x192.size a
  inb_S128x24x200_S128x16x192_0_0_6 : ∀ a, (![0, 0, 6] : Fin 3 → Nat) a + S128x16x192.size a ≤ S128x24x200.size a
  inb_S1x80x16x192_S1x1x16x192_0_6_0_0 : ∀ a, (![0, 6, 0, 0] : Fin 4 → Nat) a + S1x1x16x192.size a ≤ S1x80x16x192.size a
  inb_S128x24x200_S128x16x192_0_0_7 : ∀ a, (![0, 0, 7] : Fin 3 → Nat) a + S128x16x192.size a ≤ S128x24x200.size a
  inb_S1x80x16x192_S1x1x16x192_0_7_0_0 : ∀ a, (![0, 7, 0, 0] : Fin 4 → Nat) a + S1x1x16x192.size a ≤ S1x80x16x192.size a
  inb_S128x24x200_S128x16x192_0_0_8 : ∀ a, (![0, 0, 8] : Fin 3 → Nat) a + S128x16x192.size a ≤ S128x24x200.size a
  inb_S1x80x16x192_S1x1x16x192_0_8_0_0 : ∀ a, (![0, 8, 0, 0] : Fin 4 → Nat) a + S1x1x16x192.size a ≤ S1x80x16x192.size a
  inb_S128x24x200_S128x16x192_0_1_0 : ∀ a, (![0, 1, 0] : Fin 3 → Nat) a + S128x16x192.size a ≤ S128x24x200.size a
  inb_S1x80x16x192_S1x1x16x192_0_9_0_0 : ∀ a, (![0, 9, 0, 0] : Fin 4 → Nat) a + S1x1x16x192.size a ≤ S1x80x16x192.size a
  inb_S128x24x200_S128x16x192_0_1_1 : ∀ a, (![0, 1, 1] : Fin 3 → Nat) a + S128x16x192.size a ≤ S128x24x200.size a
  inb_S1x80x16x192_S1x1x16x192_0_10_0_0 : ∀ a, (![0, 10, 0, 0] : Fin 4 → Nat) a + S1x1x16x192.size a ≤ S1x80x16x192.size a
  inb_S128x24x200_S128x16x192_0_1_2 : ∀ a, (![0, 1, 2] : Fin 3 → Nat) a + S128x16x192.size a ≤ S128x24x200.size a
  inb_S1x80x16x192_S1x1x16x192_0_11_0_0 : ∀ a, (![0, 11, 0, 0] : Fin 4 → Nat) a + S1x1x16x192.size a ≤ S1x80x16x192.size a
  inb_S128x24x200_S128x16x192_0_1_3 : ∀ a, (![0, 1, 3] : Fin 3 → Nat) a + S128x16x192.size a ≤ S128x24x200.size a
  inb_S1x80x16x192_S1x1x16x192_0_12_0_0 : ∀ a, (![0, 12, 0, 0] : Fin 4 → Nat) a + S1x1x16x192.size a ≤ S1x80x16x192.size a
  inb_S128x24x200_S128x16x192_0_1_4 : ∀ a, (![0, 1, 4] : Fin 3 → Nat) a + S128x16x192.size a ≤ S128x24x200.size a
  inb_S1x80x16x192_S1x1x16x192_0_13_0_0 : ∀ a, (![0, 13, 0, 0] : Fin 4 → Nat) a + S1x1x16x192.size a ≤ S1x80x16x192.size a
  inb_S128x24x200_S128x16x192_0_1_5 : ∀ a, (![0, 1, 5] : Fin 3 → Nat) a + S128x16x192.size a ≤ S128x24x200.size a
  inb_S1x80x16x192_S1x1x16x192_0_14_0_0 : ∀ a, (![0, 14, 0, 0] : Fin 4 → Nat) a + S1x1x16x192.size a ≤ S1x80x16x192.size a
  inb_S128x24x200_S128x16x192_0_1_6 : ∀ a, (![0, 1, 6] : Fin 3 → Nat) a + S128x16x192.size a ≤ S128x24x200.size a
  inb_S1x80x16x192_S1x1x16x192_0_15_0_0 : ∀ a, (![0, 15, 0, 0] : Fin 4 → Nat) a + S1x1x16x192.size a ≤ S1x80x16x192.size a
  inb_S128x24x200_S128x16x192_0_1_7 : ∀ a, (![0, 1, 7] : Fin 3 → Nat) a + S128x16x192.size a ≤ S128x24x200.size a
  inb_S1x80x16x192_S1x1x16x192_0_16_0_0 : ∀ a, (![0, 16, 0, 0] : Fin 4 → Nat) a + S1x1x16x192.size a ≤ S1x80x16x192.size a
  inb_S128x24x200_S128x16x192_0_1_8 : ∀ a, (![0, 1, 8] : Fin 3 → Nat) a + S128x16x192.size a ≤ S128x24x200.size a
  inb_S1x80x16x192_S1x1x16x192_0_17_0_0 : ∀ a, (![0, 17, 0, 0] : Fin 4 → Nat) a + S1x1x16x192.size a ≤ S1x80x16x192.size a
  inb_S128x24x200_S128x16x192_0_2_0 : ∀ a, (![0, 2, 0] : Fin 3 → Nat) a + S128x16x192.size a ≤ S128x24x200.size a
  inb_S1x80x16x192_S1x1x16x192_0_18_0_0 : ∀ a, (![0, 18, 0, 0] : Fin 4 → Nat) a + S1x1x16x192.size a ≤ S1x80x16x192.size a
  inb_S128x24x200_S128x16x192_0_2_1 : ∀ a, (![0, 2, 1] : Fin 3 → Nat) a + S128x16x192.size a ≤ S128x24x200.size a
  inb_S1x80x16x192_S1x1x16x192_0_19_0_0 : ∀ a, (![0, 19, 0, 0] : Fin 4 → Nat) a + S1x1x16x192.size a ≤ S1x80x16x192.size a
  inb_S128x24x200_S128x16x192_0_2_2 : ∀ a, (![0, 2, 2] : Fin 3 → Nat) a + S128x16x192.size a ≤ S128x24x200.size a
  inb_S1x80x16x192_S1x1x16x192_0_20_0_0 : ∀ a, (![0, 20, 0, 0] : Fin 4 → Nat) a + S1x1x16x192.size a ≤ S1x80x16x192.size a
  inb_S128x24x200_S128x16x192_0_2_3 : ∀ a, (![0, 2, 3] : Fin 3 → Nat) a + S128x16x192.size a ≤ S128x24x200.size a
  inb_S1x80x16x192_S1x1x16x192_0_21_0_0 : ∀ a, (![0, 21, 0, 0] : Fin 4 → Nat) a + S1x1x16x192.size a ≤ S1x80x16x192.size a
  inb_S128x24x200_S128x16x192_0_2_4 : ∀ a, (![0, 2, 4] : Fin 3 → Nat) a + S128x16x192.size a ≤ S128x24x200.size a
  inb_S1x80x16x192_S1x1x16x192_0_22_0_0 : ∀ a, (![0, 22, 0, 0] : Fin 4 → Nat) a + S1x1x16x192.size a ≤ S1x80x16x192.size a
  inb_S128x24x200_S128x16x192_0_2_5 : ∀ a, (![0, 2, 5] : Fin 3 → Nat) a + S128x16x192.size a ≤ S128x24x200.size a
  inb_S1x80x16x192_S1x1x16x192_0_23_0_0 : ∀ a, (![0, 23, 0, 0] : Fin 4 → Nat) a + S1x1x16x192.size a ≤ S1x80x16x192.size a
  inb_S128x24x200_S128x16x192_0_2_6 : ∀ a, (![0, 2, 6] : Fin 3 → Nat) a + S128x16x192.size a ≤ S128x24x200.size a
  inb_S1x80x16x192_S1x1x16x192_0_24_0_0 : ∀ a, (![0, 24, 0, 0] : Fin 4 → Nat) a + S1x1x16x192.size a ≤ S1x80x16x192.size a
  inb_S128x24x200_S128x16x192_0_2_7 : ∀ a, (![0, 2, 7] : Fin 3 → Nat) a + S128x16x192.size a ≤ S128x24x200.size a
  inb_S1x80x16x192_S1x1x16x192_0_25_0_0 : ∀ a, (![0, 25, 0, 0] : Fin 4 → Nat) a + S1x1x16x192.size a ≤ S1x80x16x192.size a
  inb_S128x24x200_S128x16x192_0_2_8 : ∀ a, (![0, 2, 8] : Fin 3 → Nat) a + S128x16x192.size a ≤ S128x24x200.size a
  inb_S1x80x16x192_S1x1x16x192_0_26_0_0 : ∀ a, (![0, 26, 0, 0] : Fin 4 → Nat) a + S1x1x16x192.size a ≤ S1x80x16x192.size a
  inb_S128x24x200_S128x16x192_0_3_0 : ∀ a, (![0, 3, 0] : Fin 3 → Nat) a + S128x16x192.size a ≤ S128x24x200.size a
  inb_S1x80x16x192_S1x1x16x192_0_27_0_0 : ∀ a, (![0, 27, 0, 0] : Fin 4 → Nat) a + S1x1x16x192.size a ≤ S1x80x16x192.size a
  inb_S128x24x200_S128x16x192_0_3_1 : ∀ a, (![0, 3, 1] : Fin 3 → Nat) a + S128x16x192.size a ≤ S128x24x200.size a
  inb_S1x80x16x192_S1x1x16x192_0_28_0_0 : ∀ a, (![0, 28, 0, 0] : Fin 4 → Nat) a + S1x1x16x192.size a ≤ S1x80x16x192.size a
  inb_S128x24x200_S128x16x192_0_3_2 : ∀ a, (![0, 3, 2] : Fin 3 → Nat) a + S128x16x192.size a ≤ S128x24x200.size a
  inb_S1x80x16x192_S1x1x16x192_0_29_0_0 : ∀ a, (![0, 29, 0, 0] : Fin 4 → Nat) a + S1x1x16x192.size a ≤ S1x80x16x192.size a
  inb_S128x24x200_S128x16x192_0_3_3 : ∀ a, (![0, 3, 3] : Fin 3 → Nat) a + S128x16x192.size a ≤ S128x24x200.size a
  inb_S1x80x16x192_S1x1x16x192_0_30_0_0 : ∀ a, (![0, 30, 0, 0] : Fin 4 → Nat) a + S1x1x16x192.size a ≤ S1x80x16x192.size a
  inb_S128x24x200_S128x16x192_0_3_4 : ∀ a, (![0, 3, 4] : Fin 3 → Nat) a + S128x16x192.size a ≤ S128x24x200.size a
  inb_S1x80x16x192_S1x1x16x192_0_31_0_0 : ∀ a, (![0, 31, 0, 0] : Fin 4 → Nat) a + S1x1x16x192.size a ≤ S1x80x16x192.size a
  inb_S128x24x200_S128x16x192_0_3_5 : ∀ a, (![0, 3, 5] : Fin 3 → Nat) a + S128x16x192.size a ≤ S128x24x200.size a
  inb_S1x80x16x192_S1x1x16x192_0_32_0_0 : ∀ a, (![0, 32, 0, 0] : Fin 4 → Nat) a + S1x1x16x192.size a ≤ S1x80x16x192.size a
  inb_S128x24x200_S128x16x192_0_3_6 : ∀ a, (![0, 3, 6] : Fin 3 → Nat) a + S128x16x192.size a ≤ S128x24x200.size a
  inb_S1x80x16x192_S1x1x16x192_0_33_0_0 : ∀ a, (![0, 33, 0, 0] : Fin 4 → Nat) a + S1x1x16x192.size a ≤ S1x80x16x192.size a
  inb_S128x24x200_S128x16x192_0_3_7 : ∀ a, (![0, 3, 7] : Fin 3 → Nat) a + S128x16x192.size a ≤ S128x24x200.size a
  inb_S1x80x16x192_S1x1x16x192_0_34_0_0 : ∀ a, (![0, 34, 0, 0] : Fin 4 → Nat) a + S1x1x16x192.size a ≤ S1x80x16x192.size a
  inb_S128x24x200_S128x16x192_0_3_8 : ∀ a, (![0, 3, 8] : Fin 3 → Nat) a + S128x16x192.size a ≤ S128x24x200.size a
  inb_S1x80x16x192_S1x1x16x192_0_35_0_0 : ∀ a, (![0, 35, 0, 0] : Fin 4 → Nat) a + S1x1x16x192.size a ≤ S1x80x16x192.size a
  inb_S128x24x200_S128x16x192_0_4_0 : ∀ a, (![0, 4, 0] : Fin 3 → Nat) a + S128x16x192.size a ≤ S128x24x200.size a
  inb_S1x80x16x192_S1x1x16x192_0_36_0_0 : ∀ a, (![0, 36, 0, 0] : Fin 4 → Nat) a + S1x1x16x192.size a ≤ S1x80x16x192.size a
  inb_S128x24x200_S128x16x192_0_4_1 : ∀ a, (![0, 4, 1] : Fin 3 → Nat) a + S128x16x192.size a ≤ S128x24x200.size a
  inb_S1x80x16x192_S1x1x16x192_0_37_0_0 : ∀ a, (![0, 37, 0, 0] : Fin 4 → Nat) a + S1x1x16x192.size a ≤ S1x80x16x192.size a
  inb_S128x24x200_S128x16x192_0_4_2 : ∀ a, (![0, 4, 2] : Fin 3 → Nat) a + S128x16x192.size a ≤ S128x24x200.size a
  inb_S1x80x16x192_S1x1x16x192_0_38_0_0 : ∀ a, (![0, 38, 0, 0] : Fin 4 → Nat) a + S1x1x16x192.size a ≤ S1x80x16x192.size a
  inb_S128x24x200_S128x16x192_0_4_3 : ∀ a, (![0, 4, 3] : Fin 3 → Nat) a + S128x16x192.size a ≤ S128x24x200.size a
  inb_S1x80x16x192_S1x1x16x192_0_39_0_0 : ∀ a, (![0, 39, 0, 0] : Fin 4 → Nat) a + S1x1x16x192.size a ≤ S1x80x16x192.size a
  inb_S128x24x200_S128x16x192_0_4_5 : ∀ a, (![0, 4, 5] : Fin 3 → Nat) a + S128x16x192.size a ≤ S128x24x200.size a
  inb_S1x80x16x192_S1x1x16x192_0_40_0_0 : ∀ a, (![0, 40, 0, 0] : Fin 4 → Nat) a + S1x1x16x192.size a ≤ S1x80x16x192.size a
  inb_S128x24x200_S128x16x192_0_4_6 : ∀ a, (![0, 4, 6] : Fin 3 → Nat) a + S128x16x192.size a ≤ S128x24x200.size a
  inb_S1x80x16x192_S1x1x16x192_0_41_0_0 : ∀ a, (![0, 41, 0, 0] : Fin 4 → Nat) a + S1x1x16x192.size a ≤ S1x80x16x192.size a
  inb_S128x24x200_S128x16x192_0_4_7 : ∀ a, (![0, 4, 7] : Fin 3 → Nat) a + S128x16x192.size a ≤ S128x24x200.size a
  inb_S1x80x16x192_S1x1x16x192_0_42_0_0 : ∀ a, (![0, 42, 0, 0] : Fin 4 → Nat) a + S1x1x16x192.size a ≤ S1x80x16x192.size a
  inb_S128x24x200_S128x16x192_0_4_8 : ∀ a, (![0, 4, 8] : Fin 3 → Nat) a + S128x16x192.size a ≤ S128x24x200.size a
  inb_S1x80x16x192_S1x1x16x192_0_43_0_0 : ∀ a, (![0, 43, 0, 0] : Fin 4 → Nat) a + S1x1x16x192.size a ≤ S1x80x16x192.size a
  inb_S128x24x200_S128x16x192_0_5_0 : ∀ a, (![0, 5, 0] : Fin 3 → Nat) a + S128x16x192.size a ≤ S128x24x200.size a
  inb_S1x80x16x192_S1x1x16x192_0_44_0_0 : ∀ a, (![0, 44, 0, 0] : Fin 4 → Nat) a + S1x1x16x192.size a ≤ S1x80x16x192.size a
  inb_S128x24x200_S128x16x192_0_5_1 : ∀ a, (![0, 5, 1] : Fin 3 → Nat) a + S128x16x192.size a ≤ S128x24x200.size a
  inb_S1x80x16x192_S1x1x16x192_0_45_0_0 : ∀ a, (![0, 45, 0, 0] : Fin 4 → Nat) a + S1x1x16x192.size a ≤ S1x80x16x192.size a
  inb_S128x24x200_S128x16x192_0_5_2 : ∀ a, (![0, 5, 2] : Fin 3 → Nat) a + S128x16x192.size a ≤ S128x24x200.size a
  inb_S1x80x16x192_S1x1x16x192_0_46_0_0 : ∀ a, (![0, 46, 0, 0] : Fin 4 → Nat) a + S1x1x16x192.size a ≤ S1x80x16x192.size a
  inb_S128x24x200_S128x16x192_0_5_3 : ∀ a, (![0, 5, 3] : Fin 3 → Nat) a + S128x16x192.size a ≤ S128x24x200.size a
  inb_S1x80x16x192_S1x1x16x192_0_47_0_0 : ∀ a, (![0, 47, 0, 0] : Fin 4 → Nat) a + S1x1x16x192.size a ≤ S1x80x16x192.size a
  inb_S128x24x200_S128x16x192_0_5_4 : ∀ a, (![0, 5, 4] : Fin 3 → Nat) a + S128x16x192.size a ≤ S128x24x200.size a
  inb_S1x80x16x192_S1x1x16x192_0_48_0_0 : ∀ a, (![0, 48, 0, 0] : Fin 4 → Nat) a + S1x1x16x192.size a ≤ S1x80x16x192.size a
  inb_S128x24x200_S128x16x192_0_5_5 : ∀ a, (![0, 5, 5] : Fin 3 → Nat) a + S128x16x192.size a ≤ S128x24x200.size a
  inb_S1x80x16x192_S1x1x16x192_0_49_0_0 : ∀ a, (![0, 49, 0, 0] : Fin 4 → Nat) a + S1x1x16x192.size a ≤ S1x80x16x192.size a
  inb_S128x24x200_S128x16x192_0_5_6 : ∀ a, (![0, 5, 6] : Fin 3 → Nat) a + S128x16x192.size a ≤ S128x24x200.size a
  inb_S1x80x16x192_S1x1x16x192_0_50_0_0 : ∀ a, (![0, 50, 0, 0] : Fin 4 → Nat) a + S1x1x16x192.size a ≤ S1x80x16x192.size a
  inb_S128x24x200_S128x16x192_0_5_7 : ∀ a, (![0, 5, 7] : Fin 3 → Nat) a + S128x16x192.size a ≤ S128x24x200.size a
  inb_S1x80x16x192_S1x1x16x192_0_51_0_0 : ∀ a, (![0, 51, 0, 0] : Fin 4 → Nat) a + S1x1x16x192.size a ≤ S1x80x16x192.size a
  inb_S128x24x200_S128x16x192_0_5_8 : ∀ a, (![0, 5, 8] : Fin 3 → Nat) a + S128x16x192.size a ≤ S128x24x200.size a
  inb_S1x80x16x192_S1x1x16x192_0_52_0_0 : ∀ a, (![0, 52, 0, 0] : Fin 4 → Nat) a + S1x1x16x192.size a ≤ S1x80x16x192.size a
  inb_S128x24x200_S128x16x192_0_6_0 : ∀ a, (![0, 6, 0] : Fin 3 → Nat) a + S128x16x192.size a ≤ S128x24x200.size a
  inb_S1x80x16x192_S1x1x16x192_0_53_0_0 : ∀ a, (![0, 53, 0, 0] : Fin 4 → Nat) a + S1x1x16x192.size a ≤ S1x80x16x192.size a
  inb_S128x24x200_S128x16x192_0_6_1 : ∀ a, (![0, 6, 1] : Fin 3 → Nat) a + S128x16x192.size a ≤ S128x24x200.size a
  inb_S1x80x16x192_S1x1x16x192_0_54_0_0 : ∀ a, (![0, 54, 0, 0] : Fin 4 → Nat) a + S1x1x16x192.size a ≤ S1x80x16x192.size a
  inb_S128x24x200_S128x16x192_0_6_2 : ∀ a, (![0, 6, 2] : Fin 3 → Nat) a + S128x16x192.size a ≤ S128x24x200.size a
  inb_S1x80x16x192_S1x1x16x192_0_55_0_0 : ∀ a, (![0, 55, 0, 0] : Fin 4 → Nat) a + S1x1x16x192.size a ≤ S1x80x16x192.size a
  inb_S128x24x200_S128x16x192_0_6_3 : ∀ a, (![0, 6, 3] : Fin 3 → Nat) a + S128x16x192.size a ≤ S128x24x200.size a
  inb_S1x80x16x192_S1x1x16x192_0_56_0_0 : ∀ a, (![0, 56, 0, 0] : Fin 4 → Nat) a + S1x1x16x192.size a ≤ S1x80x16x192.size a
  inb_S128x24x200_S128x16x192_0_6_4 : ∀ a, (![0, 6, 4] : Fin 3 → Nat) a + S128x16x192.size a ≤ S128x24x200.size a
  inb_S1x80x16x192_S1x1x16x192_0_57_0_0 : ∀ a, (![0, 57, 0, 0] : Fin 4 → Nat) a + S1x1x16x192.size a ≤ S1x80x16x192.size a
  inb_S128x24x200_S128x16x192_0_6_5 : ∀ a, (![0, 6, 5] : Fin 3 → Nat) a + S128x16x192.size a ≤ S128x24x200.size a
  inb_S1x80x16x192_S1x1x16x192_0_58_0_0 : ∀ a, (![0, 58, 0, 0] : Fin 4 → Nat) a + S1x1x16x192.size a ≤ S1x80x16x192.size a
  inb_S128x24x200_S128x16x192_0_6_6 : ∀ a, (![0, 6, 6] : Fin 3 → Nat) a + S128x16x192.size a ≤ S128x24x200.size a
  inb_S1x80x16x192_S1x1x16x192_0_59_0_0 : ∀ a, (![0, 59, 0, 0] : Fin 4 → Nat) a + S1x1x16x192.size a ≤ S1x80x16x192.size a
  inb_S128x24x200_S128x16x192_0_6_7 : ∀ a, (![0, 6, 7] : Fin 3 → Nat) a + S128x16x192.size a ≤ S128x24x200.size a
  inb_S1x80x16x192_S1x1x16x192_0_60_0_0 : ∀ a, (![0, 60, 0, 0] : Fin 4 → Nat) a + S1x1x16x192.size a ≤ S1x80x16x192.size a
  inb_S128x24x200_S128x16x192_0_6_8 : ∀ a, (![0, 6, 8] : Fin 3 → Nat) a + S128x16x192.size a ≤ S128x24x200.size a
  inb_S1x80x16x192_S1x1x16x192_0_61_0_0 : ∀ a, (![0, 61, 0, 0] : Fin 4 → Nat) a + S1x1x16x192.size a ≤ S1x80x16x192.size a
  inb_S128x24x200_S128x16x192_0_7_0 : ∀ a, (![0, 7, 0] : Fin 3 → Nat) a + S128x16x192.size a ≤ S128x24x200.size a
  inb_S1x80x16x192_S1x1x16x192_0_62_0_0 : ∀ a, (![0, 62, 0, 0] : Fin 4 → Nat) a + S1x1x16x192.size a ≤ S1x80x16x192.size a
  inb_S128x24x200_S128x16x192_0_7_1 : ∀ a, (![0, 7, 1] : Fin 3 → Nat) a + S128x16x192.size a ≤ S128x24x200.size a
  inb_S1x80x16x192_S1x1x16x192_0_63_0_0 : ∀ a, (![0, 63, 0, 0] : Fin 4 → Nat) a + S1x1x16x192.size a ≤ S1x80x16x192.size a
  inb_S128x24x200_S128x16x192_0_7_2 : ∀ a, (![0, 7, 2] : Fin 3 → Nat) a + S128x16x192.size a ≤ S128x24x200.size a
  inb_S1x80x16x192_S1x1x16x192_0_64_0_0 : ∀ a, (![0, 64, 0, 0] : Fin 4 → Nat) a + S1x1x16x192.size a ≤ S1x80x16x192.size a
  inb_S128x24x200_S128x16x192_0_7_3 : ∀ a, (![0, 7, 3] : Fin 3 → Nat) a + S128x16x192.size a ≤ S128x24x200.size a
  inb_S1x80x16x192_S1x1x16x192_0_65_0_0 : ∀ a, (![0, 65, 0, 0] : Fin 4 → Nat) a + S1x1x16x192.size a ≤ S1x80x16x192.size a
  inb_S128x24x200_S128x16x192_0_7_4 : ∀ a, (![0, 7, 4] : Fin 3 → Nat) a + S128x16x192.size a ≤ S128x24x200.size a
  inb_S1x80x16x192_S1x1x16x192_0_66_0_0 : ∀ a, (![0, 66, 0, 0] : Fin 4 → Nat) a + S1x1x16x192.size a ≤ S1x80x16x192.size a
  inb_S128x24x200_S128x16x192_0_7_5 : ∀ a, (![0, 7, 5] : Fin 3 → Nat) a + S128x16x192.size a ≤ S128x24x200.size a
  inb_S1x80x16x192_S1x1x16x192_0_67_0_0 : ∀ a, (![0, 67, 0, 0] : Fin 4 → Nat) a + S1x1x16x192.size a ≤ S1x80x16x192.size a
  inb_S128x24x200_S128x16x192_0_7_6 : ∀ a, (![0, 7, 6] : Fin 3 → Nat) a + S128x16x192.size a ≤ S128x24x200.size a
  inb_S1x80x16x192_S1x1x16x192_0_68_0_0 : ∀ a, (![0, 68, 0, 0] : Fin 4 → Nat) a + S1x1x16x192.size a ≤ S1x80x16x192.size a
  inb_S128x24x200_S128x16x192_0_7_7 : ∀ a, (![0, 7, 7] : Fin 3 → Nat) a + S128x16x192.size a ≤ S128x24x200.size a
  inb_S1x80x16x192_S1x1x16x192_0_69_0_0 : ∀ a, (![0, 69, 0, 0] : Fin 4 → Nat) a + S1x1x16x192.size a ≤ S1x80x16x192.size a
  inb_S128x24x200_S128x16x192_0_7_8 : ∀ a, (![0, 7, 8] : Fin 3 → Nat) a + S128x16x192.size a ≤ S128x24x200.size a
  inb_S1x80x16x192_S1x1x16x192_0_70_0_0 : ∀ a, (![0, 70, 0, 0] : Fin 4 → Nat) a + S1x1x16x192.size a ≤ S1x80x16x192.size a
  inb_S128x24x200_S128x16x192_0_8_0 : ∀ a, (![0, 8, 0] : Fin 3 → Nat) a + S128x16x192.size a ≤ S128x24x200.size a
  inb_S1x80x16x192_S1x1x16x192_0_71_0_0 : ∀ a, (![0, 71, 0, 0] : Fin 4 → Nat) a + S1x1x16x192.size a ≤ S1x80x16x192.size a
  inb_S128x24x200_S128x16x192_0_8_1 : ∀ a, (![0, 8, 1] : Fin 3 → Nat) a + S128x16x192.size a ≤ S128x24x200.size a
  inb_S1x80x16x192_S1x1x16x192_0_72_0_0 : ∀ a, (![0, 72, 0, 0] : Fin 4 → Nat) a + S1x1x16x192.size a ≤ S1x80x16x192.size a
  inb_S128x24x200_S128x16x192_0_8_2 : ∀ a, (![0, 8, 2] : Fin 3 → Nat) a + S128x16x192.size a ≤ S128x24x200.size a
  inb_S1x80x16x192_S1x1x16x192_0_73_0_0 : ∀ a, (![0, 73, 0, 0] : Fin 4 → Nat) a + S1x1x16x192.size a ≤ S1x80x16x192.size a
  inb_S128x24x200_S128x16x192_0_8_3 : ∀ a, (![0, 8, 3] : Fin 3 → Nat) a + S128x16x192.size a ≤ S128x24x200.size a
  inb_S1x80x16x192_S1x1x16x192_0_74_0_0 : ∀ a, (![0, 74, 0, 0] : Fin 4 → Nat) a + S1x1x16x192.size a ≤ S1x80x16x192.size a
  inb_S128x24x200_S128x16x192_0_8_4 : ∀ a, (![0, 8, 4] : Fin 3 → Nat) a + S128x16x192.size a ≤ S128x24x200.size a
  inb_S1x80x16x192_S1x1x16x192_0_75_0_0 : ∀ a, (![0, 75, 0, 0] : Fin 4 → Nat) a + S1x1x16x192.size a ≤ S1x80x16x192.size a
  inb_S128x24x200_S128x16x192_0_8_5 : ∀ a, (![0, 8, 5] : Fin 3 → Nat) a + S128x16x192.size a ≤ S128x24x200.size a
  inb_S1x80x16x192_S1x1x16x192_0_76_0_0 : ∀ a, (![0, 76, 0, 0] : Fin 4 → Nat) a + S1x1x16x192.size a ≤ S1x80x16x192.size a
  inb_S128x24x200_S128x16x192_0_8_6 : ∀ a, (![0, 8, 6] : Fin 3 → Nat) a + S128x16x192.size a ≤ S128x24x200.size a
  inb_S1x80x16x192_S1x1x16x192_0_77_0_0 : ∀ a, (![0, 77, 0, 0] : Fin 4 → Nat) a + S1x1x16x192.size a ≤ S1x80x16x192.size a
  inb_S128x24x200_S128x16x192_0_8_7 : ∀ a, (![0, 8, 7] : Fin 3 → Nat) a + S128x16x192.size a ≤ S128x24x200.size a
  inb_S1x80x16x192_S1x1x16x192_0_78_0_0 : ∀ a, (![0, 78, 0, 0] : Fin 4 → Nat) a + S1x1x16x192.size a ≤ S1x80x16x192.size a
  inb_S128x24x200_S128x16x192_0_8_8 : ∀ a, (![0, 8, 8] : Fin 3 → Nat) a + S128x16x192.size a ≤ S128x24x200.size a
  inb_S1x80x16x192_S1x1x16x192_0_79_0_0 : ∀ a, (![0, 79, 0, 0] : Fin 4 → Nat) a + S1x1x16x192.size a ≤ S1x80x16x192.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16x192.size a ≤ S8x128x128x192.size a
  hwx0_0 : ∀ i : grid0.Coords, EltTy.bits .f32 = 32 ∨ (Rect.block (s := S8x128x128x192) S1x128x16x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x128x16x200.size a < S8x128x136x200.size a
  hwx0_1 : ∀ i : grid0.Coords, EltTy.bits .f32 = 32 ∨ (Rect.unit (s := S8x128x136x200) (fun a => cc0_transform_1 i a * S1x128x16x200.size a) (fun a => (Pipeline.Clip.of (cc0_transform_1 i a) (S1x128x16x200.size a) (S8x128x136x200.size a)).extent (S1x128x16x200.size a)) fun a => Pipeline.Clip.inb (Pipeline.Clip.ok_of (hstart0_1 i a))).WholeWords (EltTy.packing .f32)
  hwxs0_1 : ∀ i : grid0.Coords, EltTy.bits .f32 = 32 ∨ (Rect.unit (s := S1x128x16x200) (fun _ => 0) (fun a => (Pipeline.Clip.of (cc0_transform_1 i a) (S1x128x16x200.size a) (S8x128x136x200.size a)).extent (S1x128x16x200.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x8x200.size a ≤ S8x128x136x200.size a
  hwx0_2 : ∀ i : grid0.Coords, EltTy.bits .f32 = 32 ∨ (Rect.block (s := S8x128x136x200) S1x128x8x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x80x16x192.size a ≤ S8x80x128x192.size a
  hwx0_3 : ∀ i : grid0.Coords, EltTy.bits .f32 = 32 ∨ (Rect.block (s := S8x80x128x192) S1x80x16x192.size (cc0_transform_3 i) (hinb0_3 i)).WholeWords (EltTy.packing .f32)

variable [Facts₀]

abbrev win0_0 : Pipeline.Window sig grid0 :=
  Pipeline.Window.ofSpec (Memref.whole main_arg0) S1x128x16x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S1x128x16x200.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S1x128x8x200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x80x16x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x128x192 : Shape := ⟨4, ![8, 128, 128, 192]⟩
abbrev S_ : Shape := ⟨0, ![]⟩
abbrev S8x128x136x200 : Shape := ⟨4, ![8, 128, 136, 200]⟩
abbrev S8x128x192 : Shape := ⟨3, ![8, 128, 192]⟩
abbrev S8x1x128x192 : Shape := ⟨4, ![8, 1, 128, 192]⟩
abbrev S8x16x128x192 : Shape := ⟨4, ![8, 16, 128, 192]⟩
abbrev S8x80x128x192 : Shape := ⟨4, ![8, 80, 128, 192]⟩

abbrev nBuf : Space → Nat
  | .hbm => 651
  | .vmem => 0
  | .smem => 0
  | _ => 0

abbrev hbmTy0_0 (i : Nat) : BufTy := match i % 128 with
  | 0 => ⟨S8x128x128x192, .f32⟩
  | 1 => ⟨S8x128x128x192, .f32⟩
  | 2 => ⟨S_, .i32⟩
  | 3 => ⟨S_, .f32⟩
  | 4 => ⟨S8x128x136x200, .f32⟩
  | 5 => ⟨S8x128x128x192, .f32⟩
  | 6 => ⟨S8x128x128x192, .f32⟩
  | 7 => ⟨S_, .f32⟩
  | 8 => ⟨S8x128x192, .f32⟩
  | 9 => ⟨S_, .f32⟩
  | 10 => ⟨S8x128x192, .f32⟩
  | 11 => ⟨S8x128x192, .f32⟩
  | 12 => ⟨S8x128x128x192, .f32⟩
  | 13 => ⟨S8x128x128x192, .f32⟩
  | 14 => ⟨S_, .f32⟩
  | 15 => ⟨S8x128x192, .f32⟩
  | 16 => ⟨S_, .f32⟩
  | 17 => ⟨S8x128x192, .f32⟩
  | 18 => ⟨S8x128x192, .f32⟩
  | 19 => ⟨S8x128x128x192, .f32⟩
  | 20 => ⟨S8x128x128x192, .f32⟩
  | 21 => ⟨S_, .f32⟩
  | 22 => ⟨S8x128x192, .f32⟩
  | 23 => ⟨S_, .f32⟩
  | 24 => ⟨S8x128x192, .f32⟩
  | 25 => ⟨S8x128x192, .f32⟩
  | 26 => ⟨S8x128x128x192, .f32⟩
  | 27 => ⟨S8x128x128x192, .f32⟩
  | 28 => ⟨S_, .f32⟩
  | 29 => ⟨S8x128x192, .f32⟩
  | 30 => ⟨S_, .f32⟩
  | 31 => ⟨S8x128x192, .f32⟩
  | 32 => ⟨S8x128x192, .f32⟩
  | 33 => ⟨S8x128x128x192, .f32⟩
  | 34 => ⟨S8x128x128x192, .f32⟩
  | 35 => ⟨S_, .f32⟩
  | 36 => ⟨S8x128x192, .f32⟩
  | 37 => ⟨S_, .f32⟩
  | 38 => ⟨S8x128x192, .f32⟩
  | 39 => ⟨S8x128x192, .f32⟩
  | 40 => ⟨S8x128x128x192, .f32⟩
  | 41 => ⟨S8x128x128x192, .f32⟩
  | 42 => ⟨S_, .f32⟩
  | 43 => ⟨S8x128x192, .f32⟩
  | 44 => ⟨S_, .f32⟩
  | 45 => ⟨S8x128x192, .f32⟩
  | 46 => ⟨S8x128x192, .f32⟩
  | 47 => ⟨S8x128x128x192, .f32⟩
  | 48 => ⟨S8x128x128x192, .f32⟩
  | 49 => ⟨S_, .f32⟩
  | 50 => ⟨S8x128x192, .f32⟩
  | 51 => ⟨S_, .f32⟩
  | 52 => ⟨S8x128x192, .f32⟩
  | 53 => ⟨S8x128x192, .f32⟩
  | 54 => ⟨S8x128x128x192, .f32⟩
  | 55 => ⟨S8x128x128x192, .f32⟩
  | 56 => ⟨S_, .f32⟩
  | 57 => ⟨S8x128x192, .f32⟩
  | 58 => ⟨S_, .f32⟩
  | 59 => ⟨S8x128x192, .f32⟩
  | 60 => ⟨S8x128x192, .f32⟩
  | 61 => ⟨S8x128x128x192, .f32⟩
  | 62 => ⟨S8x128x128x192, .f32⟩
  | 63 => ⟨S_, .f32⟩
  | 64 => ⟨S8x128x192, .f32⟩
  | 65 => ⟨S_, .f32⟩
  | 66 => ⟨S8x128x192, .f32⟩
  | 67 => ⟨S8x128x192, .f32⟩
  | 68 => ⟨S8x128x128x192, .f32⟩
  | 69 => ⟨S8x128x128x192, .f32⟩
  | 70 => ⟨S_, .f32⟩
  | 71 => ⟨S8x128x192, .f32⟩
  | 72 => ⟨S_, .f32⟩
  | 73 => ⟨S8x128x192, .f32⟩
  | 74 => ⟨S8x128x192, .f32⟩
  | 75 => ⟨S8x128x128x192, .f32⟩
  | 76 => ⟨S8x128x128x192, .f32⟩
  | 77 => ⟨S_, .f32⟩
  | 78 => ⟨S8x128x192, .f32⟩
  | 79 => ⟨S_, .f32⟩
  | 80 => ⟨S8x128x192, .f32⟩
  | 81 => ⟨S8x128x192, .f32⟩
  | 82 => ⟨S8x128x128x192, .f32⟩
  | 83 => ⟨S8x128x128x192, .f32⟩
  | 84 => ⟨S_, .f32⟩
  | 85 => ⟨S8x128x192, .f32⟩
  | 86 => ⟨S_, .f32⟩
  | 87 => ⟨S8x128x192, .f32⟩
  | 88 => ⟨S8x128x192, .f32⟩
  | 89 => ⟨S8x128x128x192, .f32⟩
  | 90 => ⟨S8x128x128x192, .f32⟩
  | 91 => ⟨S_, .f32⟩
  | 92 => ⟨S8x128x192, .f32⟩
  | 93 => ⟨S_, .f32⟩
  | 94 => ⟨S8x128x192, .f32⟩
  | 95 => ⟨S8x128x192, .f32⟩
  | 96 => ⟨S8x128x128x192, .f32⟩
  | 97 => ⟨S8x128x128x192, .f32⟩
  | 98 => ⟨S_, .f32⟩
  | 99 => ⟨S8x128x192, .f32⟩
  | 100 => ⟨S_, .f32⟩
  | 101 => ⟨S8x128x192, .f32⟩
  | 102 => ⟨S8x128x192, .f32⟩
  | 103 => ⟨S8x128x128x192, .f32⟩
  | 104 => ⟨S8x128x128x192, .f32⟩
  | 105 => ⟨S_, .f32⟩
  | 106 => ⟨S8x128x192, .f32⟩
  | 107 => ⟨S_, .f32⟩
  | 108 => ⟨S8x128x192, .f32⟩
  | 109 => ⟨S8x128x192, .f32⟩
  | 110 => ⟨S8x128x128x192, .f32⟩
  | 111 => ⟨S8x128x128x192, .f32⟩
  | 112 => ⟨S_, .f32⟩
  | 113 => ⟨S8x128x192, .f32⟩
  | 114 => ⟨S_, .f32⟩
  | 115 => ⟨S8x128x192, .f32⟩
  | 116 => ⟨S8x128x192, .f32⟩
  | 117 => ⟨S8x128x128x192, .f32⟩
  | 118 => ⟨S8x128x128x192, .f32⟩
  | 119 => ⟨S_, .f32⟩
  | 120 => ⟨S8x128x192, .f32⟩
  | 121 => ⟨S_, .f32⟩
  | 122 => ⟨S8x128x192, .f32⟩
  | 123 => ⟨S8x128x192, .f32⟩
  | 124 => ⟨S8x128x128x192, .f32⟩
  | 125 => ⟨S8x128x128x192, .f32⟩
  | 126 => ⟨S_, .f32⟩
  | 127 => ⟨S8x128x192, .f32⟩
  | _ => ⟨S8x128x128x192, .f32⟩

abbrev hbmTy0_1 (i : Nat) : BufTy := match i % 128 with
  | 0 => ⟨S_, .f32⟩
  | 1 => ⟨S8x128x192, .f32⟩
  | 2 => ⟨S8x128x192, .f32⟩
  | 3 => ⟨S8x128x128x192, .f32⟩
  | 4 => ⟨S8x128x128x192, .f32⟩
  | 5 => ⟨S_, .f32⟩
  | 6 => ⟨S8x128x192, .f32⟩
  | 7 => ⟨S_, .f32⟩
  | 8 => ⟨S8x128x192, .f32⟩
  | 9 => ⟨S8x128x192, .f32⟩
  | 10 => ⟨S8x128x128x192, .f32⟩
  | 11 => ⟨S8x128x128x192, .f32⟩
  | 12 => ⟨S_, .f32⟩
  | 13 => ⟨S8x128x192, .f32⟩
  | 14 => ⟨S_, .f32⟩
  | 15 => ⟨S8x128x192, .f32⟩
  | 16 => ⟨S8x128x192, .f32⟩
  | 17 => ⟨S8x128x128x192, .f32⟩
  | 18 => ⟨S8x128x128x192, .f32⟩
  | 19 => ⟨S_, .f32⟩
  | 20 => ⟨S8x128x192, .f32⟩
  | 21 => ⟨S_, .f32⟩
  | 22 => ⟨S8x128x192, .f32⟩
  | 23 => ⟨S8x128x192, .f32⟩
  | 24 => ⟨S8x128x128x192, .f32⟩
  | 25 => ⟨S8x128x128x192, .f32⟩
  | 26 => ⟨S_, .f32⟩
  | 27 => ⟨S8x128x192, .f32⟩
  | 28 => ⟨S_, .f32⟩
  | 29 => ⟨S8x128x192, .f32⟩
  | 30 => ⟨S8x128x192, .f32⟩
  | 31 => ⟨S8x128x128x192, .f32⟩
  | 32 => ⟨S8x128x128x192, .f32⟩
  | 33 => ⟨S_, .f32⟩
  | 34 => ⟨S8x128x192, .f32⟩
  | 35 => ⟨S_, .f32⟩
  | 36 => ⟨S8x128x192, .f32⟩
  | 37 => ⟨S8x128x192, .f32⟩
  | 38 => ⟨S8x128x128x192, .f32⟩
  | 39 => ⟨S8x128x128x192, .f32⟩
  | 40 => ⟨S_, .f32⟩
  | 41 => ⟨S8x128x192, .f32⟩
  | 42 => ⟨S_, .f32⟩
  | 43 => ⟨S8x128x192, .f32⟩
  | 44 => ⟨S8x128x192, .f32⟩
  | 45 => ⟨S8x128x128x192, .f32⟩
  | 46 => ⟨S8x128x128x192, .f32⟩
  | 47 => ⟨S_, .f32⟩
  | 48 => ⟨S8x128x192, .f32⟩
  | 49 => ⟨S_, .f32⟩
  | 50 => ⟨S8x128x192, .f32⟩
  | 51 => ⟨S8x128x192, .f32⟩
  | 52 => ⟨S8x128x128x192, .f32⟩
  | 53 => ⟨S8x128x128x192, .f32⟩
  | 54 => ⟨S_, .f32⟩
  | 55 => ⟨S8x128x192, .f32⟩
  | 56 => ⟨S_, .f32⟩
  | 57 => ⟨S8x128x192, .f32⟩
  | 58 => ⟨S8x128x192, .f32⟩
  | 59 => ⟨S8x128x128x192, .f32⟩
  | 60 => ⟨S8x128x128x192, .f32⟩
  | 61 => ⟨S_, .f32⟩
  | 62 => ⟨S8x128x192, .f32⟩
  | 63 => ⟨S_, .f32⟩
  | 64 => ⟨S8x128x192, .f32⟩
  | 65 => ⟨S8x128x192, .f32⟩
  | 66 => ⟨S8x128x128x192, .f32⟩
  | 67 => ⟨S8x128x128x192, .f32⟩
  | 68 => ⟨S_, .f32⟩
  | 69 => ⟨S8x128x192, .f32⟩
  | 70 => ⟨S_, .f32⟩
  | 71 => ⟨S8x128x192, .f32⟩
  | 72 => ⟨S8x128x192, .f32⟩
  | 73 => ⟨S8x128x128x192, .f32⟩
  | 74 => ⟨S8x128x128x192, .f32⟩
  | 75 => ⟨S_, .f32⟩
  | 76 => ⟨S8x128x192, .f32⟩
  | 77 => ⟨S_, .f32⟩
  | 78 => ⟨S8x128x192, .f32⟩
  | 79 => ⟨S8x128x192, .f32⟩
  | 80 => ⟨S8x128x128x192, .f32⟩
  | 81 => ⟨S8x128x128x192, .f32⟩
  | 82 => ⟨S_, .f32⟩
  | 83 => ⟨S8x128x192, .f32⟩
  | 84 => ⟨S_, .f32⟩
  | 85 => ⟨S8x128x192, .f32⟩
  | 86 => ⟨S8x128x192, .f32⟩
  | 87 => ⟨S8x128x128x192, .f32⟩
  | 88 => ⟨S8x128x128x192, .f32⟩
  | 89 => ⟨S_, .f32⟩
  | 90 => ⟨S8x128x192, .f32⟩
  | 91 => ⟨S_, .f32⟩
  | 92 => ⟨S8x128x192, .f32⟩
  | 93 => ⟨S8x128x192, .f32⟩
  | 94 => ⟨S8x128x128x192, .f32⟩
  | 95 => ⟨S8x128x128x192, .f32⟩
  | 96 => ⟨S_, .f32⟩
  | 97 => ⟨S8x128x192, .f32⟩
  | 98 => ⟨S_, .f32⟩
  | 99 => ⟨S8x128x192, .f32⟩
  | 100 => ⟨S8x128x192, .f32⟩
  | 101 => ⟨S8x128x128x192, .f32⟩
  | 102 => ⟨S8x128x128x192, .f32⟩
  | 103 => ⟨S_, .f32⟩
  | 104 => ⟨S8x128x192, .f32⟩
  | 105 => ⟨S_, .f32⟩
  | 106 => ⟨S8x128x192, .f32⟩
  | 107 => ⟨S8x128x192, .f32⟩
  | 108 => ⟨S8x128x128x192, .f32⟩
  | 109 => ⟨S8x128x128x192, .f32⟩
  | 110 => ⟨S_, .f32⟩
  | 111 => ⟨S8x128x192, .f32⟩
  | 112 => ⟨S_, .f32⟩
  | 113 => ⟨S8x128x192, .f32⟩
  | 114 => ⟨S8x128x192, .f32⟩
  | 115 => ⟨S8x128x128x192, .f32⟩
  | 116 => ⟨S8x128x128x192, .f32⟩
  | 117 => ⟨S_, .f32⟩
  | 118 => ⟨S8x128x192, .f32⟩
  | 119 => ⟨S_, .f32⟩
  | 120 => ⟨S8x128x192, .f32⟩
  | 121 => ⟨S8x128x192, .f32⟩
  | 122 => ⟨S8x128x128x192, .f32⟩
  | 123 => ⟨S8x128x128x192, .f32⟩
  | 124 => ⟨S_, .f32⟩
  | 125 => ⟨S8x128x192, .f32⟩
  | 126 => ⟨S_, .f32⟩
  | 127 => ⟨S8x128x192, .f32⟩
  | _ => ⟨S8x128x128x192, .f32⟩

abbrev hbmTy0_2 (i : Nat) : BufTy := match i % 128 with
  | 0 => ⟨S8x128x192, .f32⟩
  | 1 => ⟨S8x128x128x192, .f32⟩
  | 2 => ⟨S8x128x128x192, .f32⟩
  | 3 => ⟨S_, .f32⟩
  | 4 => ⟨S8x128x192, .f32⟩
  | 5 => ⟨S_, .f32⟩
  | 6 => ⟨S8x128x192, .f32⟩
  | 7 => ⟨S8x128x192, .f32⟩
  | 8 => ⟨S8x128x128x192, .f32⟩
  | 9 => ⟨S8x128x128x192, .f32⟩
  | 10 => ⟨S_, .f32⟩
  | 11 => ⟨S8x128x192, .f32⟩
  | 12 => ⟨S_, .f32⟩
  | 13 => ⟨S8x128x192, .f32⟩
  | 14 => ⟨S8x128x192, .f32⟩
  | 15 => ⟨S8x128x128x192, .f32⟩
  | 16 => ⟨S8x128x128x192, .f32⟩
  | 17 => ⟨S_, .f32⟩
  | 18 => ⟨S8x128x192, .f32⟩
  | 19 => ⟨S_, .f32⟩
  | 20 => ⟨S8x128x192, .f32⟩
  | 21 => ⟨S8x128x192, .f32⟩
  | 22 => ⟨S8x128x128x192, .f32⟩
  | 23 => ⟨S8x128x128x192, .f32⟩
  | 24 => ⟨S_, .f32⟩
  | 25 => ⟨S8x128x192, .f32⟩
  | 26 => ⟨S_, .f32⟩
  | 27 => ⟨S8x128x192, .f32⟩
  | 28 => ⟨S8x128x192, .f32⟩
  | 29 => ⟨S8x128x128x192, .f32⟩
  | 30 => ⟨S8x128x128x192, .f32⟩
  | 31 => ⟨S_, .f32⟩
  | 32 => ⟨S8x128x192, .f32⟩
  | 33 => ⟨S_, .f32⟩
  | 34 => ⟨S8x128x192, .f32⟩
  | 35 => ⟨S8x128x192, .f32⟩
  | 36 => ⟨S8x128x128x192, .f32⟩
  | 37 => ⟨S8x128x128x192, .f32⟩
  | 38 => ⟨S_, .f32⟩
  | 39 => ⟨S8x128x192, .f32⟩
  | 40 => ⟨S_, .f32⟩
  | 41 => ⟨S8x128x192, .f32⟩
  | 42 => ⟨S8x128x192, .f32⟩
  | 43 => ⟨S8x128x128x192, .f32⟩
  | 44 => ⟨S8x128x128x192, .f32⟩
  | 45 => ⟨S_, .f32⟩
  | 46 => ⟨S8x128x192, .f32⟩
  | 47 => ⟨S_, .f32⟩
  | 48 => ⟨S8x128x192, .f32⟩
  | 49 => ⟨S8x128x192, .f32⟩
  | 50 => ⟨S8x128x128x192, .f32⟩
  | 51 => ⟨S8x128x128x192, .f32⟩
  | 52 => ⟨S_, .f32⟩
  | 53 => ⟨S8x128x192, .f32⟩
  | 54 => ⟨S_, .f32⟩
  | 55 => ⟨S8x128x192, .f32⟩
  | 56 => ⟨S8x128x192, .f32⟩
  | 57 => ⟨S8x128x128x192, .f32⟩
  | 58 => ⟨S8x128x128x192, .f32⟩
  | 59 => ⟨S_, .f32⟩
  | 60 => ⟨S8x128x192, .f32⟩
  | 61 => ⟨S_, .f32⟩
  | 62 => ⟨S8x128x192, .f32⟩
  | 63 => ⟨S8x128x192, .f32⟩
  | 64 => ⟨S8x128x128x192, .f32⟩
  | 65 => ⟨S8x128x128x192, .f32⟩
  | 66 => ⟨S_, .f32⟩
  | 67 => ⟨S8x128x192, .f32⟩
  | 68 => ⟨S_, .f32⟩
  | 69 => ⟨S8x128x192, .f32⟩
  | 70 => ⟨S8x128x192, .f32⟩
  | 71 => ⟨S8x128x128x192, .f32⟩
  | 72 => ⟨S8x128x128x192, .f32⟩
  | 73 => ⟨S_, .f32⟩
  | 74 => ⟨S8x128x192, .f32⟩
  | 75 => ⟨S_, .f32⟩
  | 76 => ⟨S8x128x192, .f32⟩
  | 77 => ⟨S8x128x192, .f32⟩
  | 78 => ⟨S8x128x128x192, .f32⟩
  | 79 => ⟨S8x128x128x192, .f32⟩
  | 80 => ⟨S_, .f32⟩
  | 81 => ⟨S8x128x192, .f32⟩
  | 82 => ⟨S_, .f32⟩
  | 83 => ⟨S8x128x192, .f32⟩
  | 84 => ⟨S8x128x192, .f32⟩
  | 85 => ⟨S8x128x128x192, .f32⟩
  | 86 => ⟨S8x128x128x192, .f32⟩
  | 87 => ⟨S_, .f32⟩
  | 88 => ⟨S8x128x192, .f32⟩
  | 89 => ⟨S_, .f32⟩
  | 90 => ⟨S8x128x192, .f32⟩
  | 91 => ⟨S8x128x192, .f32⟩
  | 92 => ⟨S8x128x128x192, .f32⟩
  | 93 => ⟨S8x128x128x192, .f32⟩
  | 94 => ⟨S_, .f32⟩
  | 95 => ⟨S8x128x192, .f32⟩
  | 96 => ⟨S_, .f32⟩
  | 97 => ⟨S8x128x192, .f32⟩
  | 98 => ⟨S8x128x192, .f32⟩
  | 99 => ⟨S8x128x128x192, .f32⟩
  | 100 => ⟨S8x128x128x192, .f32⟩
  | 101 => ⟨S_, .f32⟩
  | 102 => ⟨S8x128x192, .f32⟩
  | 103 => ⟨S_, .f32⟩
  | 104 => ⟨S8x128x192, .f32⟩
  | 105 => ⟨S8x128x192, .f32⟩
  | 106 => ⟨S8x128x128x192, .f32⟩
  | 107 => ⟨S8x128x128x192, .f32⟩
  | 108 => ⟨S_, .f32⟩
  | 109 => ⟨S8x128x192, .f32⟩
  | 110 => ⟨S_, .f32⟩
  | 111 => ⟨S8x128x192, .f32⟩
  | 112 => ⟨S8x128x192, .f32⟩
  | 113 => ⟨S8x128x128x192, .f32⟩
  | 114 => ⟨S8x128x128x192, .f32⟩
  | 115 => ⟨S_, .f32⟩
  | 116 => ⟨S8x128x192, .f32⟩
  | 117 => ⟨S_, .f32⟩
  | 118 => ⟨S8x128x192, .f32⟩
  | 119 => ⟨S8x128x192, .f32⟩
  | 120 => ⟨S8x128x128x192, .f32⟩
  | 121 => ⟨S8x128x128x192, .f32⟩
  | 122 => ⟨S_, .f32⟩
  | 123 => ⟨S8x128x192, .f32⟩
  | 124 => ⟨S_, .f32⟩
  | 125 => ⟨S8x128x192, .f32⟩
  | 126 => ⟨S8x128x192, .f32⟩
  | 127 => ⟨S8x128x128x192, .f32⟩
  | _ => ⟨S8x128x128x192, .f32⟩

abbrev hbmTy0_3 (i : Nat) : BufTy := match i % 128 with
  | 0 => ⟨S8x128x128x192, .f32⟩
  | 1 => ⟨S_, .f32⟩
  | 2 => ⟨S8x128x192, .f32⟩
  | 3 => ⟨S_, .f32⟩
  | 4 => ⟨S8x128x192, .f32⟩
  | 5 => ⟨S8x128x192, .f32⟩
  | 6 => ⟨S8x128x128x192, .f32⟩
  | 7 => ⟨S8x128x128x192, .f32⟩
  | 8 => ⟨S_, .f32⟩
  | 9 => ⟨S8x128x192, .f32⟩
  | 10 => ⟨S_, .f32⟩
  | 11 => ⟨S8x128x192, .f32⟩
  | 12 => ⟨S8x128x192, .f32⟩
  | 13 => ⟨S8x128x128x192, .f32⟩
  | 14 => ⟨S8x128x128x192, .f32⟩
  | 15 => ⟨S_, .f32⟩
  | 16 => ⟨S8x128x192, .f32⟩
  | 17 => ⟨S_, .f32⟩
  | 18 => ⟨S8x128x192, .f32⟩
  | 19 => ⟨S8x128x192, .f32⟩
  | 20 => ⟨S8x128x128x192, .f32⟩
  | 21 => ⟨S8x128x128x192, .f32⟩
  | 22 => ⟨S_, .f32⟩
  | 23 => ⟨S8x128x192, .f32⟩
  | 24 => ⟨S_, .f32⟩
  | 25 => ⟨S8x128x192, .f32⟩
  | 26 => ⟨S8x128x192, .f32⟩
  | 27 => ⟨S8x128x128x192, .f32⟩
  | 28 => ⟨S8x128x128x192, .f32⟩
  | 29 => ⟨S_, .f32⟩
  | 30 => ⟨S8x128x192, .f32⟩
  | 31 => ⟨S_, .f32⟩
  | 32 => ⟨S8x128x192, .f32⟩
  | 33 => ⟨S8x128x192, .f32⟩
  | 34 => ⟨S8x128x128x192, .f32⟩
  | 35 => ⟨S8x128x128x192, .f32⟩
  | 36 => ⟨S_, .f32⟩
  | 37 => ⟨S8x128x192, .f32⟩
  | 38 => ⟨S_, .f32⟩
  | 39 => ⟨S8x128x192, .f32⟩
  | 40 => ⟨S8x128x192, .f32⟩
  | 41 => ⟨S8x128x128x192, .f32⟩
  | 42 => ⟨S8x128x128x192, .f32⟩
  | 43 => ⟨S_, .f32⟩
  | 44 => ⟨S8x128x192, .f32⟩
  | 45 => ⟨S_, .f32⟩
  | 46 => ⟨S8x128x192, .f32⟩
  | 47 => ⟨S8x128x192, .f32⟩
  | 48 => ⟨S8x128x128x192, .f32⟩
  | 49 => ⟨S8x128x128x192, .f32⟩
  | 50 => ⟨S_, .f32⟩
  | 51 => ⟨S8x128x192, .f32⟩
  | 52 => ⟨S_, .f32⟩
  | 53 => ⟨S8x128x192, .f32⟩
  | 54 => ⟨S8x128x192, .f32⟩
  | 55 => ⟨S8x128x128x192, .f32⟩
  | 56 => ⟨S8x128x128x192, .f32⟩
  | 57 => ⟨S_, .f32⟩
  | 58 => ⟨S8x128x192, .f32⟩
  | 59 => ⟨S_, .f32⟩
  | 60 => ⟨S8x128x192, .f32⟩
  | 61 => ⟨S8x128x192, .f32⟩
  | 62 => ⟨S8x128x128x192, .f32⟩
  | 63 => ⟨S8x128x128x192, .f32⟩
  | 64 => ⟨S_, .f32⟩
  | 65 => ⟨S8x128x192, .f32⟩
  | 66 => ⟨S_, .f32⟩
  | 67 => ⟨S8x128x192, .f32⟩
  | 68 => ⟨S8x128x192, .f32⟩
  | 69 => ⟨S8x128x128x192, .f32⟩
  | 70 => ⟨S8x128x128x192, .f32⟩
  | 71 => ⟨S_, .f32⟩
  | 72 => ⟨S8x128x192, .f32⟩
  | 73 => ⟨S_, .f32⟩
  | 74 => ⟨S8x128x192, .f32⟩
  | 75 => ⟨S8x128x192, .f32⟩
  | 76 => ⟨S8x128x128x192, .f32⟩
  | 77 => ⟨S8x128x128x192, .f32⟩
  | 78 => ⟨S_, .f32⟩
  | 79 => ⟨S8x128x192, .f32⟩
  | 80 => ⟨S_, .f32⟩
  | 81 => ⟨S8x128x192, .f32⟩
  | 82 => ⟨S8x128x192, .f32⟩
  | 83 => ⟨S8x128x128x192, .f32⟩
  | 84 => ⟨S8x128x128x192, .f32⟩
  | 85 => ⟨S_, .f32⟩
  | 86 => ⟨S8x128x192, .f32⟩
  | 87 => ⟨S_, .f32⟩
  | 88 => ⟨S8x128x192, .f32⟩
  | 89 => ⟨S8x128x192, .f32⟩
  | 90 => ⟨S8x128x128x192, .f32⟩
  | 91 => ⟨S8x128x128x192, .f32⟩
  | 92 => ⟨S_, .f32⟩
  | 93 => ⟨S8x128x192, .f32⟩
  | 94 => ⟨S_, .f32⟩
  | 95 => ⟨S8x128x192, .f32⟩
  | 96 => ⟨S8x128x192, .f32⟩
  | 97 => ⟨S8x128x128x192, .f32⟩
  | 98 => ⟨S8x128x128x192, .f32⟩
  | 99 => ⟨S_, .f32⟩
  | 100 => ⟨S8x128x192, .f32⟩
  | 101 => ⟨S_, .f32⟩
  | 102 => ⟨S8x128x192, .f32⟩
  | 103 => ⟨S8x128x192, .f32⟩
  | 104 => ⟨S8x128x128x192, .f32⟩
  | 105 => ⟨S8x128x128x192, .f32⟩
  | 106 => ⟨S_, .f32⟩
  | 107 => ⟨S8x128x192, .f32⟩
  | 108 => ⟨S_, .f32⟩
  | 109 => ⟨S8x128x192, .f32⟩
  | 110 => ⟨S8x128x192, .f32⟩
  | 111 => ⟨S8x128x128x192, .f32⟩
  | 112 => ⟨S8x128x128x192, .f32⟩
  | 113 => ⟨S_, .f32⟩
  | 114 => ⟨S8x128x192, .f32⟩
  | 115 => ⟨S_, .f32⟩
  | 116 => ⟨S8x128x192, .f32⟩
  | 117 => ⟨S8x128x192, .f32⟩
  | 118 => ⟨S8x128x128x192, .f32⟩
  | 119 => ⟨S8x128x128x192, .f32⟩
  | 120 => ⟨S_, .f32⟩
  | 121 => ⟨S8x128x192, .f32⟩
  | 122 => ⟨S_, .f32⟩
  | 123 => ⟨S8x128x192, .f32⟩
  | 124 => ⟨S8x128x192, .f32⟩
  | 125 => ⟨S8x128x128x192, .f32⟩
  | 126 => ⟨S8x128x128x192, .f32⟩
  | 127 => ⟨S_, .f32⟩
  | _ => ⟨S8x128x128x192, .f32⟩

abbrev hbmTy0_4 (i : Nat) : BufTy := match i % 128 with
  | 0 => ⟨S8x128x192, .f32⟩
  | 1 => ⟨S_, .f32⟩
  | 2 => ⟨S8x128x192, .f32⟩
  | 3 => ⟨S8x128x192, .f32⟩
  | 4 => ⟨S8x128x128x192, .f32⟩
  | 5 => ⟨S8x128x128x192, .f32⟩
  | 6 => ⟨S_, .f32⟩
  | 7 => ⟨S8x128x192, .f32⟩
  | 8 => ⟨S_, .f32⟩
  | 9 => ⟨S8x128x192, .f32⟩
  | 10 => ⟨S8x128x192, .f32⟩
  | 11 => ⟨S8x128x128x192, .f32⟩
  | 12 => ⟨S8x128x128x192, .f32⟩
  | 13 => ⟨S_, .f32⟩
  | 14 => ⟨S8x128x192, .f32⟩
  | 15 => ⟨S_, .f32⟩
  | 16 => ⟨S8x128x192, .f32⟩
  | 17 => ⟨S8x128x192, .f32⟩
  | 18 => ⟨S8x128x128x192, .f32⟩
  | 19 => ⟨S8x128x128x192, .f32⟩
  | 20 => ⟨S_, .f32⟩
  | 21 => ⟨S8x128x192, .f32⟩
  | 22 => ⟨S_, .f32⟩
  | 23 => ⟨S8x128x192, .f32⟩
  | 24 => ⟨S8x128x192, .f32⟩
  | 25 => ⟨S8x128x128x192, .f32⟩
  | 26 => ⟨S8x128x128x192, .f32⟩
  | 27 => ⟨S_, .f32⟩
  | 28 => ⟨S8x128x192, .f32⟩
  | 29 => ⟨S_, .f32⟩
  | 30 => ⟨S8x128x192, .f32⟩
  | 31 => ⟨S8x128x192, .f32⟩
  | 32 => ⟨S8x128x128x192, .f32⟩
  | 33 => ⟨S8x128x128x192, .f32⟩
  | 34 => ⟨S_, .f32⟩
  | 35 => ⟨S8x128x192, .f32⟩
  | 36 => ⟨S_, .f32⟩
  | 37 => ⟨S8x128x192, .f32⟩
  | 38 => ⟨S8x128x192, .f32⟩
  | 39 => ⟨S8x128x128x192, .f32⟩
  | 40 => ⟨S8x128x128x192, .f32⟩
  | 41 => ⟨S_, .f32⟩
  | 42 => ⟨S8x128x192, .f32⟩
  | 43 => ⟨S_, .f32⟩
  | 44 => ⟨S8x128x192, .f32⟩
  | 45 => ⟨S8x128x192, .f32⟩
  | 46 => ⟨S8x128x128x192, .f32⟩
  | 47 => ⟨S8x128x128x192, .f32⟩
  | 48 => ⟨S_, .f32⟩
  | 49 => ⟨S8x128x192, .f32⟩
  | 50 => ⟨S_, .f32⟩
  | 51 => ⟨S8x128x192, .f32⟩
  | 52 => ⟨S8x128x192, .f32⟩
  | 53 => ⟨S8x1x128x192, .f32⟩
  | 54 => ⟨S8x1x128x192, .f32⟩
  | 55 => ⟨S8x1x128x192, .f32⟩
  | 56 => ⟨S8x1x128x192, .f32⟩
  | 57 => ⟨S8x1x128x192, .f32⟩
  | 58 => ⟨S8x1x128x192, .f32⟩
  | 59 => ⟨S8x1x128x192, .f32⟩
  | 60 => ⟨S8x1x128x192, .f32⟩
  | 61 => ⟨S8x1x128x192, .f32⟩
  | 62 => ⟨S8x1x128x192, .f32⟩
  | 63 => ⟨S8x1x128x192, .f32⟩
  | 64 => ⟨S8x1x128x192, .f32⟩
  | 65 => ⟨S8x1x128x192, .f32⟩
  | 66 => ⟨S8x1x128x192, .f32⟩
  | 67 => ⟨S8x1x128x192, .f32⟩
  | 68 => ⟨S8x1x128x192, .f32⟩
  | 69 => ⟨S8x1x128x192, .f32⟩
  | 70 => ⟨S8x1x128x192, .f32⟩
  | 71 => ⟨S8x1x128x192, .f32⟩
  | 72 => ⟨S8x1x128x192, .f32⟩
  | 73 => ⟨S8x1x128x192, .f32⟩
  | 74 => ⟨S8x1x128x192, .f32⟩
  | 75 => ⟨S8x1x128x192, .f32⟩
  | 76 => ⟨S8x1x128x192, .f32⟩
  | 77 => ⟨S8x1x128x192, .f32⟩
  | 78 => ⟨S8x1x128x192, .f32⟩
  | 79 => ⟨S8x1x128x192, .f32⟩
  | 80 => ⟨S8x1x128x192, .f32⟩
  | 81 => ⟨S8x1x128x192, .f32⟩
  | 82 => ⟨S8x1x128x192, .f32⟩
  | 83 => ⟨S8x1x128x192, .f32⟩
  | 84 => ⟨S8x1x128x192, .f32⟩
  | 85 => ⟨S8x1x128x192, .f32⟩
  | 86 => ⟨S8x1x128x192, .f32⟩
  | 87 => ⟨S8x1x128x192, .f32⟩
  | 88 => ⟨S8x1x128x192, .f32⟩
  | 89 => ⟨S8x1x128x192, .f32⟩
  | 90 => ⟨S8x1x128x192, .f32⟩
  | 91 => ⟨S8x1x128x192, .f32⟩
  | 92 => ⟨S8x1x128x192, .f32⟩
  | 93 => ⟨S8x1x128x192, .f32⟩
  | 94 => ⟨S8x1x128x192, .f32⟩
  | 95 => ⟨S8x1x128x192, .f32⟩
  | 96 => ⟨S8x1x128x192, .f32⟩
  | 97 => ⟨S8x1x128x192, .f32⟩
  | 98 => ⟨S8x1x128x192, .f32⟩
  | 99 => ⟨S8x1x128x192, .f32⟩
  | 100 => ⟨S8x1x128x192, .f32⟩
  | 101 => ⟨S8x1x128x192, .f32⟩
  | 102 => ⟨S8x1x128x192, .f32⟩
  | 103 => ⟨S8x1x128x192, .f32⟩
  | 104 => ⟨S8x1x128x192, .f32⟩
  | 105 => ⟨S8x1x128x192, .f32⟩
  | 106 => ⟨S8x1x128x192, .f32⟩
  | 107 => ⟨S8x1x128x192, .f32⟩
  | 108 => ⟨S8x1x128x192, .f32⟩
  | 109 => ⟨S8x1x128x192, .f32⟩
  | 110 => ⟨S8x1x128x192, .f32⟩
  | 111 => ⟨S8x1x128x192, .f32⟩
  | 112 => ⟨S8x1x128x192, .f32⟩
  | 113 => ⟨S8x1x128x192, .f32⟩
  | 114 => ⟨S8x1x128x192, .f32⟩
  | 115 => ⟨S8x1x128x192, .f32⟩
  | 116 => ⟨S8x1x128x192, .f32⟩
  | 117 => ⟨S8x1x128x192, .f32⟩
  | 118 => ⟨S8x1x128x192, .f32⟩
  | 119 => ⟨S8x1x128x192, .f32⟩
  | 120 => ⟨S8x1x128x192, .f32⟩
  | 121 => ⟨S8x1x128x192, .f32⟩
  | 122 => ⟨S8x1x128x192, .f32⟩
  | 123 => ⟨S8x1x128x192, .f32⟩
  | 124 => ⟨S8x1x128x192, .f32⟩
  | 125 => ⟨S8x1x128x192, .f32⟩
  | 126 => ⟨S8x1x128x192, .f32⟩
  | 127 => ⟨S8x1x128x192, .f32⟩
  | _ => ⟨S8x128x128x192, .f32⟩

abbrev hbmTy0_5 (i : Nat) : BufTy := match i % 128 with
  | 0 => ⟨S8x1x128x192, .f32⟩
  | 1 => ⟨S8x1x128x192, .f32⟩
  | 2 => ⟨S8x1x128x192, .f32⟩
  | 3 => ⟨S8x1x128x192, .f32⟩
  | 4 => ⟨S8x1x128x192, .f32⟩
  | 5 => ⟨S8x16x128x192, .f32⟩
  | 6 => ⟨S8x16x128x192, .f32⟩
  | 7 => ⟨S8x16x128x192, .f32⟩
  | 8 => ⟨S8x16x128x192, .f32⟩
  | 9 => ⟨S8x16x128x192, .f32⟩
  | 10 => ⟨S8x80x128x192, .f32⟩
  | _ => ⟨S8x128x128x192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x128x128x192, .f32⟩

abbrev bufTy : (tb : Table) → Fin (tcTables nBuf tb) → BufTy
  | .hbm, ⟨i, _⟩ => hbmTy i
  | _, _ => ⟨S8x128x128x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_cst_12 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_cst_14 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩
abbrev main_cst_16 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_17 : Ref sig .tc := ⟨.hbm, 70, rfl⟩
abbrev main_v48 : Ref sig .tc := ⟨.hbm, 71, rfl⟩
abbrev main_cst_18 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_19 : Ref sig .tc := ⟨.hbm, 77, rfl⟩
abbrev main_v53 : Ref sig .tc := ⟨.hbm, 78, rfl⟩
abbrev main_cst_20 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_21 : Ref sig .tc := ⟨.hbm, 84, rfl⟩
abbrev main_v58 : Ref sig .tc := ⟨.hbm, 85, rfl⟩
abbrev main_cst_22 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_23 : Ref sig .tc := ⟨.hbm, 91, rfl⟩
abbrev main_v63 : Ref sig .tc := ⟨.hbm, 92, rfl⟩
abbrev main_cst_24 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_25 : Ref sig .tc := ⟨.hbm, 98, rfl⟩
abbrev main_v68 : Ref sig .tc := ⟨.hbm, 99, rfl⟩
abbrev main_cst_26 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_27 : Ref sig .tc := ⟨.hbm, 105, rfl⟩
abbrev main_v73 : Ref sig .tc := ⟨.hbm, 106, rfl⟩
abbrev main_cst_28 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_29 : Ref sig .tc := ⟨.hbm, 112, rfl⟩
abbrev main_v78 : Ref sig .tc := ⟨.hbm, 113, rfl⟩
abbrev main_cst_30 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_31 : Ref sig .tc := ⟨.hbm, 119, rfl⟩
abbrev main_v83 : Ref sig .tc := ⟨.hbm, 120, rfl⟩
abbrev main_cst_32 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_33 : Ref sig .tc := ⟨.hbm, 126, rfl⟩
abbrev main_v88 : Ref sig .tc := ⟨.hbm, 127, rfl⟩
abbrev main_cst_34 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_35 : Ref sig .tc := ⟨.hbm, 133, rfl⟩
abbrev main_v93 : Ref sig .tc := ⟨.hbm, 134, rfl⟩
abbrev main_cst_36 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_37 : Ref sig .tc := ⟨.hbm, 140, rfl⟩
abbrev main_v98 : Ref sig .tc := ⟨.hbm, 141, rfl⟩
abbrev main_cst_38 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_39 : Ref sig .tc := ⟨.hbm, 147, rfl⟩
abbrev main_v103 : Ref sig .tc := ⟨.hbm, 148, rfl⟩
abbrev main_cst_40 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_41 : Ref sig .tc := ⟨.hbm, 154, rfl⟩
abbrev main_v108 : Ref sig .tc := ⟨.hbm, 155, rfl⟩
abbrev main_cst_42 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_43 : Ref sig .tc := ⟨.hbm, 161, rfl⟩
abbrev main_v113 : Ref sig .tc := ⟨.hbm, 162, rfl⟩
abbrev main_cst_44 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_cst_45 : Ref sig .tc := ⟨.hbm, 168, rfl⟩
abbrev main_v118 : Ref sig .tc := ⟨.hbm, 169, rfl⟩
abbrev main_cst_46 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_47 : Ref sig .tc := ⟨.hbm, 175, rfl⟩
abbrev main_v123 : Ref sig .tc := ⟨.hbm, 176, rfl⟩
abbrev main_cst_48 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_49 : Ref sig .tc := ⟨.hbm, 182, rfl⟩
abbrev main_v128 : Ref sig .tc := ⟨.hbm, 183, rfl⟩
abbrev main_cst_50 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_51 : Ref sig .tc := ⟨.hbm, 189, rfl⟩
abbrev main_v133 : Ref sig .tc := ⟨.hbm, 190, rfl⟩
abbrev main_cst_52 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_53 : Ref sig .tc := ⟨.hbm, 196, rfl⟩
abbrev main_v138 : Ref sig .tc := ⟨.hbm, 197, rfl⟩
abbrev main_cst_54 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_55 : Ref sig .tc := ⟨.hbm, 203, rfl⟩
abbrev main_v143 : Ref sig .tc := ⟨.hbm, 204, rfl⟩
abbrev main_cst_56 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_cst_57 : Ref sig .tc := ⟨.hbm, 210, rfl⟩
abbrev main_v148 : Ref sig .tc := ⟨.hbm, 211, rfl⟩
abbrev main_cst_58 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_59 : Ref sig .tc := ⟨.hbm, 217, rfl⟩
abbrev main_v153 : Ref sig .tc := ⟨.hbm, 218, rfl⟩
abbrev main_cst_60 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_cst_61 : Ref sig .tc := ⟨.hbm, 224, rfl⟩
abbrev main_v158 : Ref sig .tc := ⟨.hbm, 225, rfl⟩
abbrev main_cst_62 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_cst_63 : Ref sig .tc := ⟨.hbm, 231, rfl⟩
abbrev main_v163 : Ref sig .tc := ⟨.hbm, 232, rfl⟩
abbrev main_cst_64 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_cst_65 : Ref sig .tc := ⟨.hbm, 238, rfl⟩
abbrev main_v168 : Ref sig .tc := ⟨.hbm, 239, rfl⟩
abbrev main_cst_66 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_cst_67 : Ref sig .tc := ⟨.hbm, 245, rfl⟩
abbrev main_v173 : Ref sig .tc := ⟨.hbm, 246, rfl⟩
abbrev main_cst_68 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_cst_69 : Ref sig .tc := ⟨.hbm, 252, rfl⟩
abbrev main_v178 : Ref sig .tc := ⟨.hbm, 253, rfl⟩
abbrev main_cst_70 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_71 : Ref sig .tc := ⟨.hbm, 259, rfl⟩
abbrev main_v183 : Ref sig .tc := ⟨.hbm, 260, rfl⟩
abbrev main_cst_72 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_cst_73 : Ref sig .tc := ⟨.hbm, 266, rfl⟩
abbrev main_v188 : Ref sig .tc := ⟨.hbm, 267, rfl⟩
abbrev main_cst_74 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_cst_75 : Ref sig .tc := ⟨.hbm, 273, rfl⟩
abbrev main_v193 : Ref sig .tc := ⟨.hbm, 274, rfl⟩
abbrev main_cst_76 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_cst_77 : Ref sig .tc := ⟨.hbm, 280, rfl⟩
abbrev main_v198 : Ref sig .tc := ⟨.hbm, 281, rfl⟩
abbrev main_cst_78 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_cst_79 : Ref sig .tc := ⟨.hbm, 287, rfl⟩
abbrev main_v203 : Ref sig .tc := ⟨.hbm, 288, rfl⟩
abbrev main_cst_80 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_v207 : Ref sig .tc := ⟨.hbm, 293, rfl⟩
abbrev main_cst_81 : Ref sig .tc := ⟨.hbm, 294, rfl⟩
abbrev main_v208 : Ref sig .tc := ⟨.hbm, 295, rfl⟩
abbrev main_cst_82 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_cst_83 : Ref sig .tc := ⟨.hbm, 301, rfl⟩
abbrev main_v213 : Ref sig .tc := ⟨.hbm, 302, rfl⟩
abbrev main_cst_84 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_cst_85 : Ref sig .tc := ⟨.hbm, 308, rfl⟩
abbrev main_v218 : Ref sig .tc := ⟨.hbm, 309, rfl⟩
abbrev main_cst_86 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_v222 : Ref sig .tc := ⟨.hbm, 314, rfl⟩
abbrev main_cst_87 : Ref sig .tc := ⟨.hbm, 315, rfl⟩
abbrev main_v223 : Ref sig .tc := ⟨.hbm, 316, rfl⟩
abbrev main_cst_88 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_cst_89 : Ref sig .tc := ⟨.hbm, 322, rfl⟩
abbrev main_v228 : Ref sig .tc := ⟨.hbm, 323, rfl⟩
abbrev main_cst_90 : Ref sig .tc := ⟨.hbm, 324, rfl⟩
abbrev main_v229 : Ref sig .tc := ⟨.hbm, 325, rfl⟩
abbrev main_v230 : Ref sig .tc := ⟨.hbm, 326, rfl⟩
abbrev main_v231 : Ref sig .tc := ⟨.hbm, 327, rfl⟩
abbrev main_v232 : Ref sig .tc := ⟨.hbm, 328, rfl⟩
abbrev main_cst_91 : Ref sig .tc := ⟨.hbm, 329, rfl⟩
abbrev main_v233 : Ref sig .tc := ⟨.hbm, 330, rfl⟩
abbrev main_cst_92 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_cst_93 : Ref sig .tc := ⟨.hbm, 336, rfl⟩
abbrev main_v238 : Ref sig .tc := ⟨.hbm, 337, rfl⟩
abbrev main_cst_94 : Ref sig .tc := ⟨.hbm, 338, rfl⟩
abbrev main_v239 : Ref sig .tc := ⟨.hbm, 339, rfl⟩
abbrev main_v240 : Ref sig .tc := ⟨.hbm, 340, rfl⟩
abbrev main_v241 : Ref sig .tc := ⟨.hbm, 341, rfl⟩
abbrev main_v242 : Ref sig .tc := ⟨.hbm, 342, rfl⟩
abbrev main_cst_95 : Ref sig .tc := ⟨.hbm, 343, rfl⟩
abbrev main_v243 : Ref sig .tc := ⟨.hbm, 344, rfl⟩
abbrev main_cst_96 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_cst_97 : Ref sig .tc := ⟨.hbm, 350, rfl⟩
abbrev main_v248 : Ref sig .tc := ⟨.hbm, 351, rfl⟩
abbrev main_cst_98 : Ref sig .tc := ⟨.hbm, 352, rfl⟩
abbrev main_v249 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_cst_99 : Ref sig .tc := ⟨.hbm, 357, rfl⟩
abbrev main_v253 : Ref sig .tc := ⟨.hbm, 358, rfl⟩
abbrev main_cst_100 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_cst_101 : Ref sig .tc := ⟨.hbm, 364, rfl⟩
abbrev main_v258 : Ref sig .tc := ⟨.hbm, 365, rfl⟩
abbrev main_cst_102 : Ref sig .tc := ⟨.hbm, 366, rfl⟩
abbrev main_v259 : Ref sig .tc := ⟨.hbm, 367, rfl⟩
abbrev main_v260 : Ref sig .tc := ⟨.hbm, 368, rfl⟩
abbrev main_v261 : Ref sig .tc := ⟨.hbm, 369, rfl⟩
abbrev main_v262 : Ref sig .tc := ⟨.hbm, 370, rfl⟩
abbrev main_cst_103 : Ref sig .tc := ⟨.hbm, 371, rfl⟩
abbrev main_v263 : Ref sig .tc := ⟨.hbm, 372, rfl⟩
abbrev main_cst_104 : Ref sig .tc := ⟨.hbm, 373, rfl⟩
abbrev main_v264 : Ref sig .tc := ⟨.hbm, 374, rfl⟩
abbrev main_v265 : Ref sig .tc := ⟨.hbm, 375, rfl⟩
abbrev main_v266 : Ref sig .tc := ⟨.hbm, 376, rfl⟩
abbrev main_v267 : Ref sig .tc := ⟨.hbm, 377, rfl⟩
abbrev main_cst_105 : Ref sig .tc := ⟨.hbm, 378, rfl⟩
abbrev main_v268 : Ref sig .tc := ⟨.hbm, 379, rfl⟩
abbrev main_cst_106 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩
abbrev main_cst_107 : Ref sig .tc := ⟨.hbm, 385, rfl⟩
abbrev main_v273 : Ref sig .tc := ⟨.hbm, 386, rfl⟩
abbrev main_cst_108 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_cst_109 : Ref sig .tc := ⟨.hbm, 392, rfl⟩
abbrev main_v278 : Ref sig .tc := ⟨.hbm, 393, rfl⟩
abbrev main_cst_110 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_v282 : Ref sig .tc := ⟨.hbm, 398, rfl⟩
abbrev main_cst_111 : Ref sig .tc := ⟨.hbm, 399, rfl⟩
abbrev main_v283 : Ref sig .tc := ⟨.hbm, 400, rfl⟩
abbrev main_cst_112 : Ref sig .tc := ⟨.hbm, 401, rfl⟩
abbrev main_v284 : Ref sig .tc := ⟨.hbm, 402, rfl⟩
abbrev main_v285 : Ref sig .tc := ⟨.hbm, 403, rfl⟩
abbrev main_v286 : Ref sig .tc := ⟨.hbm, 404, rfl⟩
abbrev main_v287 : Ref sig .tc := ⟨.hbm, 405, rfl⟩
abbrev main_cst_113 : Ref sig .tc := ⟨.hbm, 406, rfl⟩
abbrev main_v288 : Ref sig .tc := ⟨.hbm, 407, rfl⟩
abbrev main_cst_114 : Ref sig .tc := ⟨.hbm, 408, rfl⟩
abbrev main_v289 : Ref sig .tc := ⟨.hbm, 409, rfl⟩
abbrev main_v290 : Ref sig .tc := ⟨.hbm, 410, rfl⟩
abbrev main_v291 : Ref sig .tc := ⟨.hbm, 411, rfl⟩
abbrev main_v292 : Ref sig .tc := ⟨.hbm, 412, rfl⟩
abbrev main_cst_115 : Ref sig .tc := ⟨.hbm, 413, rfl⟩
abbrev main_v293 : Ref sig .tc := ⟨.hbm, 414, rfl⟩
abbrev main_cst_116 : Ref sig .tc := ⟨.hbm, 415, rfl⟩
abbrev main_v294 : Ref sig .tc := ⟨.hbm, 416, rfl⟩
abbrev main_v295 : Ref sig .tc := ⟨.hbm, 417, rfl⟩
abbrev main_v296 : Ref sig .tc := ⟨.hbm, 418, rfl⟩
abbrev main_v297 : Ref sig .tc := ⟨.hbm, 419, rfl⟩
abbrev main_cst_117 : Ref sig .tc := ⟨.hbm, 420, rfl⟩
abbrev main_v298 : Ref sig .tc := ⟨.hbm, 421, rfl⟩
abbrev main_cst_118 : Ref sig .tc := ⟨.hbm, 422, rfl⟩
abbrev main_v299 : Ref sig .tc := ⟨.hbm, 423, rfl⟩
abbrev main_v300 : Ref sig .tc := ⟨.hbm, 424, rfl⟩
abbrev main_v301 : Ref sig .tc := ⟨.hbm, 425, rfl⟩
abbrev main_v302 : Ref sig .tc := ⟨.hbm, 426, rfl⟩
abbrev main_cst_119 : Ref sig .tc := ⟨.hbm, 427, rfl⟩
abbrev main_v303 : Ref sig .tc := ⟨.hbm, 428, rfl⟩
abbrev main_cst_120 : Ref sig .tc := ⟨.hbm, 429, rfl⟩
abbrev main_v304 : Ref sig .tc := ⟨.hbm, 430, rfl⟩
abbrev main_v305 : Ref sig .tc := ⟨.hbm, 431, rfl⟩
abbrev main_v306 : Ref sig .tc := ⟨.hbm, 432, rfl⟩
abbrev main_v307 : Ref sig .tc := ⟨.hbm, 433, rfl⟩
abbrev main_cst_121 : Ref sig .tc := ⟨.hbm, 434, rfl⟩
abbrev main_v308 : Ref sig .tc := ⟨.hbm, 435, rfl⟩
abbrev main_cst_122 : Ref sig .tc := ⟨.hbm, 436, rfl⟩
abbrev main_v309 : Ref sig .tc := ⟨.hbm, 437, rfl⟩
abbrev main_v310 : Ref sig .tc := ⟨.hbm, 438, rfl⟩
abbrev main_v311 : Ref sig .tc := ⟨.hbm, 439, rfl⟩
abbrev main_v312 : Ref sig .tc := ⟨.hbm, 440, rfl⟩
abbrev main_cst_123 : Ref sig .tc := ⟨.hbm, 441, rfl⟩
abbrev main_v313 : Ref sig .tc := ⟨.hbm, 442, rfl⟩
abbrev main_cst_124 : Ref sig .tc := ⟨.hbm, 443, rfl⟩
abbrev main_v314 : Ref sig .tc := ⟨.hbm, 444, rfl⟩
abbrev main_v315 : Ref sig .tc := ⟨.hbm, 445, rfl⟩
abbrev main_v316 : Ref sig .tc := ⟨.hbm, 446, rfl⟩
abbrev main_v317 : Ref sig .tc := ⟨.hbm, 447, rfl⟩
abbrev main_cst_125 : Ref sig .tc := ⟨.hbm, 448, rfl⟩
abbrev main_v318 : Ref sig .tc := ⟨.hbm, 449, rfl⟩
abbrev main_cst_126 : Ref sig .tc := ⟨.hbm, 450, rfl⟩
abbrev main_v319 : Ref sig .tc := ⟨.hbm, 451, rfl⟩
abbrev main_v320 : Ref sig .tc := ⟨.hbm, 452, rfl⟩
abbrev main_v321 : Ref sig .tc := ⟨.hbm, 453, rfl⟩
abbrev main_v322 : Ref sig .tc := ⟨.hbm, 454, rfl⟩
abbrev main_cst_127 : Ref sig .tc := ⟨.hbm, 455, rfl⟩
abbrev main_v323 : Ref sig .tc := ⟨.hbm, 456, rfl⟩
abbrev main_cst_128 : Ref sig .tc := ⟨.hbm, 457, rfl⟩
abbrev main_v324 : Ref sig .tc := ⟨.hbm, 458, rfl⟩
abbrev main_v325 : Ref sig .tc := ⟨.hbm, 459, rfl⟩
abbrev main_v326 : Ref sig .tc := ⟨.hbm, 460, rfl⟩
abbrev main_v327 : Ref sig .tc := ⟨.hbm, 461, rfl⟩
abbrev main_cst_129 : Ref sig .tc := ⟨.hbm, 462, rfl⟩
abbrev main_v328 : Ref sig .tc := ⟨.hbm, 463, rfl⟩
abbrev main_cst_130 : Ref sig .tc := ⟨.hbm, 464, rfl⟩
abbrev main_v329 : Ref sig .tc := ⟨.hbm, 465, rfl⟩
abbrev main_v330 : Ref sig .tc := ⟨.hbm, 466, rfl⟩
abbrev main_v331 : Ref sig .tc := ⟨.hbm, 467, rfl⟩
abbrev main_v332 : Ref sig .tc := ⟨.hbm, 468, rfl⟩
abbrev main_cst_131 : Ref sig .tc := ⟨.hbm, 469, rfl⟩
abbrev main_v333 : Ref sig .tc := ⟨.hbm, 470, rfl⟩
abbrev main_cst_132 : Ref sig .tc := ⟨.hbm, 471, rfl⟩
abbrev main_v334 : Ref sig .tc := ⟨.hbm, 472, rfl⟩
abbrev main_v335 : Ref sig .tc := ⟨.hbm, 473, rfl⟩
abbrev main_v336 : Ref sig .tc := ⟨.hbm, 474, rfl⟩
abbrev main_v337 : Ref sig .tc := ⟨.hbm, 475, rfl⟩
abbrev main_cst_133 : Ref sig .tc := ⟨.hbm, 476, rfl⟩
abbrev main_v338 : Ref sig .tc := ⟨.hbm, 477, rfl⟩
abbrev main_cst_134 : Ref sig .tc := ⟨.hbm, 478, rfl⟩
abbrev main_v339 : Ref sig .tc := ⟨.hbm, 479, rfl⟩
abbrev main_v340 : Ref sig .tc := ⟨.hbm, 480, rfl⟩
abbrev main_v341 : Ref sig .tc := ⟨.hbm, 481, rfl⟩
abbrev main_v342 : Ref sig .tc := ⟨.hbm, 482, rfl⟩
abbrev main_cst_135 : Ref sig .tc := ⟨.hbm, 483, rfl⟩
abbrev main_v343 : Ref sig .tc := ⟨.hbm, 484, rfl⟩
abbrev main_cst_136 : Ref sig .tc := ⟨.hbm, 485, rfl⟩
abbrev main_v344 : Ref sig .tc := ⟨.hbm, 486, rfl⟩
abbrev main_v345 : Ref sig .tc := ⟨.hbm, 487, rfl⟩
abbrev main_v346 : Ref sig .tc := ⟨.hbm, 488, rfl⟩
abbrev main_v347 : Ref sig .tc := ⟨.hbm, 489, rfl⟩
abbrev main_cst_137 : Ref sig .tc := ⟨.hbm, 490, rfl⟩
abbrev main_v348 : Ref sig .tc := ⟨.hbm, 491, rfl⟩
abbrev main_cst_138 : Ref sig .tc := ⟨.hbm, 492, rfl⟩
abbrev main_v349 : Ref sig .tc := ⟨.hbm, 493, rfl⟩
abbrev main_v350 : Ref sig .tc := ⟨.hbm, 494, rfl⟩
abbrev main_v351 : Ref sig .tc := ⟨.hbm, 495, rfl⟩
abbrev main_v352 : Ref sig .tc := ⟨.hbm, 496, rfl⟩
abbrev main_cst_139 : Ref sig .tc := ⟨.hbm, 497, rfl⟩
abbrev main_v353 : Ref sig .tc := ⟨.hbm, 498, rfl⟩
abbrev main_cst_140 : Ref sig .tc := ⟨.hbm, 499, rfl⟩
abbrev main_v354 : Ref sig .tc := ⟨.hbm, 500, rfl⟩
abbrev main_v355 : Ref sig .tc := ⟨.hbm, 501, rfl⟩
abbrev main_v356 : Ref sig .tc := ⟨.hbm, 502, rfl⟩
abbrev main_v357 : Ref sig .tc := ⟨.hbm, 503, rfl⟩
abbrev main_cst_141 : Ref sig .tc := ⟨.hbm, 504, rfl⟩
abbrev main_v358 : Ref sig .tc := ⟨.hbm, 505, rfl⟩
abbrev main_cst_142 : Ref sig .tc := ⟨.hbm, 506, rfl⟩
abbrev main_v359 : Ref sig .tc := ⟨.hbm, 507, rfl⟩
abbrev main_v360 : Ref sig .tc := ⟨.hbm, 508, rfl⟩
abbrev main_v361 : Ref sig .tc := ⟨.hbm, 509, rfl⟩
abbrev main_v362 : Ref sig .tc := ⟨.hbm, 510, rfl⟩
abbrev main_cst_143 : Ref sig .tc := ⟨.hbm, 511, rfl⟩
abbrev main_v363 : Ref sig .tc := ⟨.hbm, 512, rfl⟩
abbrev main_cst_144 : Ref sig .tc := ⟨.hbm, 513, rfl⟩
abbrev main_v364 : Ref sig .tc := ⟨.hbm, 514, rfl⟩
abbrev main_v365 : Ref sig .tc := ⟨.hbm, 515, rfl⟩
abbrev main_v366 : Ref sig .tc := ⟨.hbm, 516, rfl⟩
abbrev main_v367 : Ref sig .tc := ⟨.hbm, 517, rfl⟩
abbrev main_cst_145 : Ref sig .tc := ⟨.hbm, 518, rfl⟩
abbrev main_v368 : Ref sig .tc := ⟨.hbm, 519, rfl⟩
abbrev main_cst_146 : Ref sig .tc := ⟨.hbm, 520, rfl⟩
abbrev main_v369 : Ref sig .tc := ⟨.hbm, 521, rfl⟩
abbrev main_v370 : Ref sig .tc := ⟨.hbm, 522, rfl⟩
abbrev main_v371 : Ref sig .tc := ⟨.hbm, 523, rfl⟩
abbrev main_v372 : Ref sig .tc := ⟨.hbm, 524, rfl⟩
abbrev main_cst_147 : Ref sig .tc := ⟨.hbm, 525, rfl⟩
abbrev main_v373 : Ref sig .tc := ⟨.hbm, 526, rfl⟩
abbrev main_cst_148 : Ref sig .tc := ⟨.hbm, 527, rfl⟩
abbrev main_v374 : Ref sig .tc := ⟨.hbm, 528, rfl⟩
abbrev main_v375 : Ref sig .tc := ⟨.hbm, 529, rfl⟩
abbrev main_v376 : Ref sig .tc := ⟨.hbm, 530, rfl⟩
abbrev main_v377 : Ref sig .tc := ⟨.hbm, 531, rfl⟩
abbrev main_cst_149 : Ref sig .tc := ⟨.hbm, 532, rfl⟩
abbrev main_v378 : Ref sig .tc := ⟨.hbm, 533, rfl⟩
abbrev main_cst_150 : Ref sig .tc := ⟨.hbm, 534, rfl⟩
abbrev main_v379 : Ref sig .tc := ⟨.hbm, 535, rfl⟩
abbrev main_v380 : Ref sig .tc := ⟨.hbm, 536, rfl⟩
abbrev main_v381 : Ref sig .tc := ⟨.hbm, 537, rfl⟩
abbrev main_v382 : Ref sig .tc := ⟨.hbm, 538, rfl⟩
abbrev main_cst_151 : Ref sig .tc := ⟨.hbm, 539, rfl⟩
abbrev main_v383 : Ref sig .tc := ⟨.hbm, 540, rfl⟩
abbrev main_cst_152 : Ref sig .tc := ⟨.hbm, 541, rfl⟩
abbrev main_v384 : Ref sig .tc := ⟨.hbm, 542, rfl⟩
abbrev main_v385 : Ref sig .tc := ⟨.hbm, 543, rfl⟩
abbrev main_v386 : Ref sig .tc := ⟨.hbm, 544, rfl⟩
abbrev main_v387 : Ref sig .tc := ⟨.hbm, 545, rfl⟩
abbrev main_cst_153 : Ref sig .tc := ⟨.hbm, 546, rfl⟩
abbrev main_v388 : Ref sig .tc := ⟨.hbm, 547, rfl⟩
abbrev main_cst_154 : Ref sig .tc := ⟨.hbm, 548, rfl⟩
abbrev main_v389 : Ref sig .tc := ⟨.hbm, 549, rfl⟩
abbrev main_v390 : Ref sig .tc := ⟨.hbm, 550, rfl⟩
abbrev main_v391 : Ref sig .tc := ⟨.hbm, 551, rfl⟩
abbrev main_v392 : Ref sig .tc := ⟨.hbm, 552, rfl⟩
abbrev main_cst_155 : Ref sig .tc := ⟨.hbm, 553, rfl⟩
abbrev main_v393 : Ref sig .tc := ⟨.hbm, 554, rfl⟩
abbrev main_cst_156 : Ref sig .tc := ⟨.hbm, 555, rfl⟩
abbrev main_v394 : Ref sig .tc := ⟨.hbm, 556, rfl⟩
abbrev main_v395 : Ref sig .tc := ⟨.hbm, 557, rfl⟩
abbrev main_v396 : Ref sig .tc := ⟨.hbm, 558, rfl⟩
abbrev main_v397 : Ref sig .tc := ⟨.hbm, 559, rfl⟩
abbrev main_cst_157 : Ref sig .tc := ⟨.hbm, 560, rfl⟩
abbrev main_v398 : Ref sig .tc := ⟨.hbm, 561, rfl⟩
abbrev main_cst_158 : Ref sig .tc := ⟨.hbm, 562, rfl⟩
abbrev main_v399 : Ref sig .tc := ⟨.hbm, 563, rfl⟩
abbrev main_v400 : Ref sig .tc := ⟨.hbm, 564, rfl⟩
abbrev main_v401 : Ref sig .tc := ⟨.hbm, 565, rfl⟩
abbrev main_v402 : Ref sig .tc := ⟨.hbm, 566, rfl⟩
abbrev main_v403 : Ref sig .tc := ⟨.hbm, 567, rfl⟩
abbrev main_v404 : Ref sig .tc := ⟨.hbm, 568, rfl⟩
abbrev main_v405 : Ref sig .tc := ⟨.hbm, 569, rfl⟩
abbrev main_v406 : Ref sig .tc := ⟨.hbm, 570, rfl⟩
abbrev main_v407 : Ref sig .tc := ⟨.hbm, 571, rfl⟩
abbrev main_v408 : Ref sig .tc := ⟨.hbm, 572, rfl⟩
abbrev main_v409 : Ref sig .tc := ⟨.hbm, 573, rfl⟩
abbrev main_v410 : Ref sig .tc := ⟨.hbm, 574, rfl⟩
abbrev main_v411 : Ref sig .tc := ⟨.hbm, 575, rfl⟩
abbrev main_v412 : Ref sig .tc := ⟨.hbm, 576, rfl⟩
abbrev main_v413 : Ref sig .tc := ⟨.hbm, 577, rfl⟩
abbrev main_v414 : Ref sig .tc := ⟨.hbm, 578, rfl⟩
abbrev main_v415 : Ref sig .tc := ⟨.hbm, 579, rfl⟩
abbrev main_v416 : Ref sig .tc := ⟨.hbm, 580, rfl⟩
abbrev main_v417 : Ref sig .tc := ⟨.hbm, 581, rfl⟩
abbrev main_v418 : Ref sig .tc := ⟨.hbm, 582, rfl⟩
abbrev main_v419 : Ref sig .tc := ⟨.hbm, 583, rfl⟩
abbrev main_v420 : Ref sig .tc := ⟨.hbm, 584, rfl⟩
abbrev main_v421 : Ref sig .tc := ⟨.hbm, 585, rfl⟩
abbrev main_v422 : Ref sig .tc := ⟨.hbm, 586, rfl⟩
abbrev main_v423 : Ref sig .tc := ⟨.hbm, 587, rfl⟩
abbrev main_v424 : Ref sig .tc := ⟨.hbm, 588, rfl⟩
abbrev main_v425 : Ref sig .tc := ⟨.hbm, 589, rfl⟩
abbrev main_v426 : Ref sig .tc := ⟨.hbm, 590, rfl⟩
abbrev main_v427 : Ref sig .tc := ⟨.hbm, 591, rfl⟩
abbrev main_v428 : Ref sig .tc := ⟨.hbm, 592, rfl⟩
abbrev main_v429 : Ref sig .tc := ⟨.hbm, 593, rfl⟩
abbrev main_v430 : Ref sig .tc := ⟨.hbm, 594, rfl⟩
abbrev main_v431 : Ref sig .tc := ⟨.hbm, 595, rfl⟩
abbrev main_v432 : Ref sig .tc := ⟨.hbm, 596, rfl⟩
abbrev main_v433 : Ref sig .tc := ⟨.hbm, 597, rfl⟩
abbrev main_v434 : Ref sig .tc := ⟨.hbm, 598, rfl⟩
abbrev main_v435 : Ref sig .tc := ⟨.hbm, 599, rfl⟩
abbrev main_v436 : Ref sig .tc := ⟨.hbm, 600, rfl⟩
abbrev main_v437 : Ref sig .tc := ⟨.hbm, 601, rfl⟩
abbrev main_v438 : Ref sig .tc := ⟨.hbm, 602, rfl⟩
abbrev main_v439 : Ref sig .tc := ⟨.hbm, 603, rfl⟩
abbrev main_v440 : Ref sig .tc := ⟨.hbm, 604, rfl⟩
abbrev main_v441 : Ref sig .tc := ⟨.hbm, 605, rfl⟩
abbrev main_v442 : Ref sig .tc := ⟨.hbm, 606, rfl⟩
abbrev main_v443 : Ref sig .tc := ⟨.hbm, 607, rfl⟩
abbrev main_v444 : Ref sig .tc := ⟨.hbm, 608, rfl⟩
abbrev main_v445 : Ref sig .tc := ⟨.hbm, 609, rfl⟩
abbrev main_v446 : Ref sig .tc := ⟨.hbm, 610, rfl⟩
abbrev main_v447 : Ref sig .tc := ⟨.hbm, 611, rfl⟩
abbrev main_v448 : Ref sig .tc := ⟨.hbm, 612, rfl⟩
abbrev main_v449 : Ref sig .tc := ⟨.hbm, 613, rfl⟩
abbrev main_v450 : Ref sig .tc := ⟨.hbm, 614, rfl⟩
abbrev main_v451 : Ref sig .tc := ⟨.hbm, 615, rfl⟩
abbrev main_v452 : Ref sig .tc := ⟨.hbm, 616, rfl⟩
abbrev main_v453 : Ref sig .tc := ⟨.hbm, 617, rfl⟩
abbrev main_v454 : Ref sig .tc := ⟨.hbm, 618, rfl⟩
abbrev main_v455 : Ref sig .tc := ⟨.hbm, 619, rfl⟩
abbrev main_v456 : Ref sig .tc := ⟨.hbm, 620, rfl⟩
abbrev main_v457 : Ref sig .tc := ⟨.hbm, 621, rfl⟩
abbrev main_v458 : Ref sig .tc := ⟨.hbm, 622, rfl⟩
abbrev main_v459 : Ref sig .tc := ⟨.hbm, 623, rfl⟩
abbrev main_v460 : Ref sig .tc := ⟨.hbm, 624, rfl⟩
abbrev main_v461 : Ref sig .tc := ⟨.hbm, 625, rfl⟩
abbrev main_v462 : Ref sig .tc := ⟨.hbm, 626, rfl⟩
abbrev main_v463 : Ref sig .tc := ⟨.hbm, 627, rfl⟩
abbrev main_v464 : Ref sig .tc := ⟨.hbm, 628, rfl⟩
abbrev main_v465 : Ref sig .tc := ⟨.hbm, 629, rfl⟩
abbrev main_v466 : Ref sig .tc := ⟨.hbm, 630, rfl⟩
abbrev main_v467 : Ref sig .tc := ⟨.hbm, 631, rfl⟩
abbrev main_v468 : Ref sig .tc := ⟨.hbm, 632, rfl⟩
abbrev main_v469 : Ref sig .tc := ⟨.hbm, 633, rfl⟩
abbrev main_v470 : Ref sig .tc := ⟨.hbm, 634, rfl⟩
abbrev main_v471 : Ref sig .tc := ⟨.hbm, 635, rfl⟩
abbrev main_v472 : Ref sig .tc := ⟨.hbm, 636, rfl⟩
abbrev main_v473 : Ref sig .tc := ⟨.hbm, 637, rfl⟩
abbrev main_v474 : Ref sig .tc := ⟨.hbm, 638, rfl⟩
abbrev main_v475 : Ref sig .tc := ⟨.hbm, 639, rfl⟩
abbrev main_v476 : Ref sig .tc := ⟨.hbm, 640, rfl⟩
abbrev main_v477 : Ref sig .tc := ⟨.hbm, 641, rfl⟩
abbrev main_v478 : Ref sig .tc := ⟨.hbm, 642, rfl⟩
abbrev main_v479 : Ref sig .tc := ⟨.hbm, 643, rfl⟩
abbrev main_v480 : Ref sig .tc := ⟨.hbm, 644, rfl⟩
abbrev main_v481 : Ref sig .tc := ⟨.hbm, 645, rfl⟩
abbrev main_v482 : Ref sig .tc := ⟨.hbm, 646, rfl⟩
abbrev main_v483 : Ref sig .tc := ⟨.hbm, 647, rfl⟩
abbrev main_v484 : Ref sig .tc := ⟨.hbm, 648, rfl⟩
abbrev main_v485 : Ref sig .tc := ⟨.hbm, 649, rfl⟩
abbrev main_v486 : Ref sig .tc := ⟨.hbm, 650, rfl⟩

abbrev nD : Nat := 1
abbrev τ : Topo := Topo.v7x

variable {F : FTy → Type} [FloatOps F]

class Facts₀ : Prop where
  pads_S8x128x128x192_S8x128x136x200_000_000_440_440 : S8x128x128x192.Pads (![0, 0, 4, 4] : Fin 4 → Nat) ![0, 0, 4, 4] ![0, 0, 0, 0] S8x128x136x200
  h_S_ : 0 < S_.numel
  slices_S8x128x136x200_S8x128x128x192_0_0_0_0 : S8x128x136x200.Slices ![0, 0, 0, 0] S8x128x128x192
  reducesTo_S8x128x128x192_S8x128x192_d1 : S8x128x128x192.ReducesTo [1] S8x128x192
  bcast_S_S8x128x192 : S_.BroadcastsInDim S8x128x192 (![] : Fin 0 → Fin S8x128x192.rank)
  slices_S8x128x136x200_S8x128x128x192_0_0_0_1 : S8x128x136x200.Slices ![0, 0, 0, 1] S8x128x128x192
  slices_S8x128x136x200_S8x128x128x192_0_0_0_2 : S8x128x136x200.Slices ![0, 0, 0, 2] S8x128x128x192
  slices_S8x128x136x200_S8x128x128x192_0_0_0_3 : S8x128x136x200.Slices ![0, 0, 0, 3] S8x128x128x192
  slices_S8x128x136x200_S8x128x128x192_0_0_0_4 : S8x128x136x200.Slices ![0, 0, 0, 4] S8x128x128x192
  slices_S8x128x136x200_S8x128x128x192_0_0_0_5 : S8x128x136x200.Slices ![0, 0, 0, 5] S8x128x128x192
  slices_S8x128x136x200_S8x128x128x192_0_0_0_6 : S8x128x136x200.Slices ![0, 0, 0, 6] S8x128x128x192
  slices_S8x128x136x200_S8x128x128x192_0_0_0_7 : S8x128x136x200.Slices ![0, 0, 0, 7] S8x128x128x192
  slices_S8x128x136x200_S8x128x128x192_0_0_0_8 : S8x128x136x200.Slices ![0, 0, 0, 8] S8x128x128x192
  slices_S8x128x136x200_S8x128x128x192_0_0_1_0 : S8x128x136x200.Slices ![0, 0, 1, 0] S8x128x128x192
  slices_S8x128x136x200_S8x128x128x192_0_0_1_1 : S8x128x136x200.Slices ![0, 0, 1, 1] S8x128x128x192
  slices_S8x128x136x200_S8x128x128x192_0_0_1_2 : S8x128x136x200.Slices ![0, 0, 1, 2] S8x128x128x192
  slices_S8x128x136x200_S8x128x128x192_0_0_1_3 : S8x128x136x200.Slices ![0, 0, 1, 3] S8x128x128x192
  slices_S8x128x136x200_S8x128x128x192_0_0_1_4 : S8x128x136x200.Slices ![0, 0, 1, 4] S8x128x128x192
  slices_S8x128x136x200_S8x128x128x192_0_0_1_5 : S8x128x136x200.Slices ![0, 0, 1, 5] S8x128x128x192
  slices_S8x128x136x200_S8x128x128x192_0_0_1_6 : S8x128x136x200.Slices ![0, 0, 1, 6] S8x128x128x192
  slices_S8x128x136x200_S8x128x128x192_0_0_1_7 : S8x128x136x200.Slices ![0, 0, 1, 7] S8x128x128x192
  slices_S8x128x136x200_S8x128x128x192_0_0_1_8 : S8x128x136x200.Slices ![0, 0, 1, 8] S8x128x128x192
  slices_S8x128x136x200_S8x128x128x192_0_0_2_0 : S8x128x136x200.Slices ![0, 0, 2, 0] S8x128x128x192
  slices_S8x128x136x200_S8x128x128x192_0_0_2_1 : S8x128x136x200.Slices ![0, 0, 2, 1] S8x128x128x192
  slices_S8x128x136x200_S8x128x128x192_0_0_2_2 : S8x128x136x200.Slices ![0, 0, 2, 2] S8x128x128x192
  slices_S8x128x136x200_S8x128x128x192_0_0_2_3 : S8x128x136x200.Slices ![0, 0, 2, 3] S8x128x128x192
  slices_S8x128x136x200_S8x128x128x192_0_0_2_4 : S8x128x136x200.Slices ![0, 0, 2, 4] S8x128x128x192
  slices_S8x128x136x200_S8x128x128x192_0_0_2_5 : S8x128x136x200.Slices ![0, 0, 2, 5] S8x128x128x192
  slices_S8x128x136x200_S8x128x128x192_0_0_2_6 : S8x128x136x200.Slices ![0, 0, 2, 6] S8x128x128x192
  slices_S8x128x136x200_S8x128x128x192_0_0_2_7 : S8x128x136x200.Slices ![0, 0, 2, 7] S8x128x128x192
  slices_S8x128x136x200_S8x128x128x192_0_0_2_8 : S8x128x136x200.Slices ![0, 0, 2, 8] S8x128x128x192
  slices_S8x128x136x200_S8x128x128x192_0_0_3_0 : S8x128x136x200.Slices ![0, 0, 3, 0] S8x128x128x192
  slices_S8x128x136x200_S8x128x128x192_0_0_3_1 : S8x128x136x200.Slices ![0, 0, 3, 1] S8x128x128x192
  slices_S8x128x136x200_S8x128x128x192_0_0_3_2 : S8x128x136x200.Slices ![0, 0, 3, 2] S8x128x128x192
  slices_S8x128x136x200_S8x128x128x192_0_0_3_3 : S8x128x136x200.Slices ![0, 0, 3, 3] S8x128x128x192
  slices_S8x128x136x200_S8x128x128x192_0_0_3_4 : S8x128x136x200.Slices ![0, 0, 3, 4] S8x128x128x192
  slices_S8x128x136x200_S8x128x128x192_0_0_3_5 : S8x128x136x200.Slices ![0, 0, 3, 5] S8x128x128x192
  slices_S8x128x136x200_S8x128x128x192_0_0_3_6 : S8x128x136x200.Slices ![0, 0, 3, 6] S8x128x128x192
  slices_S8x128x136x200_S8x128x128x192_0_0_3_7 : S8x128x136x200.Slices ![0, 0, 3, 7] S8x128x128x192
  slices_S8x128x136x200_S8x128x128x192_0_0_3_8 : S8x128x136x200.Slices ![0, 0, 3, 8] S8x128x128x192
  slices_S8x128x136x200_S8x128x128x192_0_0_4_0 : S8x128x136x200.Slices ![0, 0, 4, 0] S8x128x128x192
  slices_S8x128x136x200_S8x128x128x192_0_0_4_1 : S8x128x136x200.Slices ![0, 0, 4, 1] S8x128x128x192
  slices_S8x128x136x200_S8x128x128x192_0_0_4_2 : S8x128x136x200.Slices ![0, 0, 4, 2] S8x128x128x192
  slices_S8x128x136x200_S8x128x128x192_0_0_4_3 : S8x128x136x200.Slices ![0, 0, 4, 3] S8x128x128x192
  slices_S8x128x136x200_S8x128x128x192_0_0_4_5 : S8x128x136x200.Slices ![0, 0, 4, 5] S8x128x128x192
  slices_S8x128x136x200_S8x128x128x192_0_0_4_6 : S8x128x136x200.Slices ![0, 0, 4, 6] S8x128x128x192
  slices_S8x128x136x200_S8x128x128x192_0_0_4_7 : S8x128x136x200.Slices ![0, 0, 4, 7] S8x128x128x192
  slices_S8x128x136x200_S8x128x128x192_0_0_4_8 : S8x128x136x200.Slices ![0, 0, 4, 8] S8x128x128x192
  slices_S8x128x136x200_S8x128x128x192_0_0_5_0 : S8x128x136x200.Slices ![0, 0, 5, 0] S8x128x128x192
  slices_S8x128x136x200_S8x128x128x192_0_0_5_1 : S8x128x136x200.Slices ![0, 0, 5, 1] S8x128x128x192
  slices_S8x128x136x200_S8x128x128x192_0_0_5_2 : S8x128x136x200.Slices ![0, 0, 5, 2] S8x128x128x192
  slices_S8x128x136x200_S8x128x128x192_0_0_5_3 : S8x128x136x200.Slices ![0, 0, 5, 3] S8x128x128x192
  slices_S8x128x136x200_S8x128x128x192_0_0_5_4 : S8x128x136x200.Slices ![0, 0, 5, 4] S8x128x128x192
  slices_S8x128x136x200_S8x128x128x192_0_0_5_5 : S8x128x136x200.Slices ![0, 0, 5, 5] S8x128x128x192
  slices_S8x128x136x200_S8x128x128x192_0_0_5_6 : S8x128x136x200.Slices ![0, 0, 5, 6] S8x128x128x192
  slices_S8x128x136x200_S8x128x128x192_0_0_5_7 : S8x128x136x200.Slices ![0, 0, 5, 7] S8x128x128x192
  slices_S8x128x136x200_S8x128x128x192_0_0_5_8 : S8x128x136x200.Slices ![0, 0, 5, 8] S8x128x128x192
  slices_S8x128x136x200_S8x128x128x192_0_0_6_0 : S8x128x136x200.Slices ![0, 0, 6, 0] S8x128x128x192
  slices_S8x128x136x200_S8x128x128x192_0_0_6_1 : S8x128x136x200.Slices ![0, 0, 6, 1] S8x128x128x192
  slices_S8x128x136x200_S8x128x128x192_0_0_6_2 : S8x128x136x200.Slices ![0, 0, 6, 2] S8x128x128x192
  slices_S8x128x136x200_S8x128x128x192_0_0_6_3 : S8x128x136x200.Slices ![0, 0, 6, 3] S8x128x128x192
  slices_S8x128x136x200_S8x128x128x192_0_0_6_4 : S8x128x136x200.Slices ![0, 0, 6, 4] S8x128x128x192
  slices_S8x128x136x200_S8x128x128x192_0_0_6_5 : S8x128x136x200.Slices ![0, 0, 6, 5] S8x128x128x192
  slices_S8x128x136x200_S8x128x128x192_0_0_6_6 : S8x128x136x200.Slices ![0, 0, 6, 6] S8x128x128x192
  slices_S8x128x136x200_S8x128x128x192_0_0_6_7 : S8x128x136x200.Slices ![0, 0, 6, 7] S8x128x128x192
  slices_S8x128x136x200_S8x128x128x192_0_0_6_8 : S8x128x136x200.Slices ![0, 0, 6, 8] S8x128x128x192
  slices_S8x128x136x200_S8x128x128x192_0_0_7_0 : S8x128x136x200.Slices ![0, 0, 7, 0] S8x128x128x192
  slices_S8x128x136x200_S8x128x128x192_0_0_7_1 : S8x128x136x200.Slices ![0, 0, 7, 1] S8x128x128x192
  slices_S8x128x136x200_S8x128x128x192_0_0_7_2 : S8x128x136x200.Slices ![0, 0, 7, 2] S8x128x128x192
  slices_S8x128x136x200_S8x128x128x192_0_0_7_3 : S8x128x136x200.Slices ![0, 0, 7, 3] S8x128x128x192
  slices_S8x128x136x200_S8x128x128x192_0_0_7_4 : S8x128x136x200.Slices ![0, 0, 7, 4] S8x128x128x192
  slices_S8x128x136x200_S8x128x128x192_0_0_7_5 : S8x128x136x200.Slices ![0, 0, 7, 5] S8x128x128x192
  slices_S8x128x136x200_S8x128x128x192_0_0_7_6 : S8x128x136x200.Slices ![0, 0, 7, 6] S8x128x128x192
  slices_S8x128x136x200_S8x128x128x192_0_0_7_7 : S8x128x136x200.Slices ![0, 0, 7, 7] S8x128x128x192
  slices_S8x128x136x200_S8x128x128x192_0_0_7_8 : S8x128x136x200.Slices ![0, 0, 7, 8] S8x128x128x192
  slices_S8x128x136x200_S8x128x128x192_0_0_8_0 : S8x128x136x200.Slices ![0, 0, 8, 0] S8x128x128x192
  slices_S8x128x136x200_S8x128x128x192_0_0_8_1 : S8x128x136x200.Slices ![0, 0, 8, 1] S8x128x128x192
  slices_S8x128x136x200_S8x128x128x192_0_0_8_2 : S8x128x136x200.Slices ![0, 0, 8, 2] S8x128x128x192
  slices_S8x128x136x200_S8x128x128x192_0_0_8_3 : S8x128x136x200.Slices ![0, 0, 8, 3] S8x128x128x192
  slices_S8x128x136x200_S8x128x128x192_0_0_8_4 : S8x128x136x200.Slices ![0, 0, 8, 4] S8x128x128x192
  slices_S8x128x136x200_S8x128x128x192_0_0_8_5 : S8x128x136x200.Slices ![0, 0, 8, 5] S8x128x128x192
  slices_S8x128x136x200_S8x128x128x192_0_0_8_6 : S8x128x136x200.Slices ![0, 0, 8, 6] S8x128x128x192
  slices_S8x128x136x200_S8x128x128x192_0_0_8_7 : S8x128x136x200.Slices ![0, 0, 8, 7] S8x128x128x192
  slices_S8x128x136x200_S8x128x128x192_0_0_8_8 : S8x128x136x200.Slices ![0, 0, 8, 8] S8x128x128x192
  bcast_S8x128x192_S8x1x128x192_0_2_3 : S8x128x192.BroadcastsInDim S8x1x128x192 (![0, 2, 3] : Fin 3 → Fin S8x1x128x192.rank)
  concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1 : Shape.Concatenates [S8x1x128x192, S8x1x128x192, S8x1x128x192, S8x1x128x192, S8x1x128x192, S8x1x128x192, S8x1x128x192, S8x1x128x192, S8x1x128x192, S8x1x128x192, S8x1x128x192, S8x1x128x192, S8x1x128x192, S8x1x128x192, S8x1x128x192, S8x1x128x192] S8x16x128x192 1
  concatenates_S8x16x128x192_S8x16x128x192_S8x16x128x192_S8x16x128x192_S8x16x128x192_S8x80x128x192_d1 : Shape.Concatenates [S8x16x128x192, S8x16x128x192, S8x16x128x192, S8x16x128x192, S8x16x128x192] S8x80x128x192 1

variable [Facts₀]

class Facts : Prop extends Facts₀ where

variable [Facts]
-- ==== Proof.KRun.lean ====
import proofs.«125151_j9363028706363_1_alg».proof.Proof.Gen.Kernel.Launch
import proofs.«125151_j9363028706363_1_alg».proof.Proof.Gen.Kernel.Skeleton
import proofs.«125151_j9363028706363_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scM : Memref sig .tc .vmem S128x24x200 .f32 := Memref.whole cc0_scratch0

set_option maxHeartbeats 4000000 in

/-- The body run once on whole blocks: it keeps its three input blocks and leaves the result block as a list of written pieces. -/
noncomputable def kernelRun (c : Dev nD) (i : grid0.Coords)
    (arg2 : Memref sig .tc .vmem S1x128x16x192 .f32) (harg2 : arg2.IsWhole)
    (arg3 : Memref sig .tc .vmem S1x128x16x200 .f32) (harg3 : arg3.IsWhole)
    (arg4 : Memref sig .tc .vmem S1x128x8x200 .f32) (harg4 : arg4.IsWhole)
    (arg5 : Memref sig .tc .vmem S1x80x16x192 .f32) (harg5 : arg5.IsWhole)
    (x0 : Vec F S1x128x16x192 .f32) (x1 : Vec F S1x128x16x200 .f32) (x2 : Vec F S1x128x8x200 .f32) :
    { L3 : List (View.Piece (Elt F) S1x80x16x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) scM fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) scM fullShare d)) -∗ K ⟨⟩))
          ⊢ wp frame (wpE (defs₀ (F := F)) Variants.none c none) E (cc0_kernel i arg2 harg2 arg3 harg3 arg4 harg4 arg5 harg5 scM (Memref.isWhole_whole _)) K } := by
  refine ⟨?_, fun E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexists _; isplitr
    swap; · iexact HS
    ipureintro; rfl

end Cert.Kernel.Hand

end
-- ==== Proof.KOut.lean ====
import proofs.«125151_j9363028706363_1_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

abbrev VO : View sig .tc .vmem S1x80x16x192 .f32 := (Memref.whole cc0_stg3_0 : Memref sig .tc .vmem S1x80x16x192 .f32).view

/-- The eighty pieces, one [1, 1, 16, 192] plane per displacement, tile the result block. -/
theorem cover3 (c : Dev nD) (i : grid0.Coords)
    (arg2 : Memref sig .tc .vmem S1x128x16x192 .f32) (harg2 : arg2.IsWhole)
    (arg3 : Memref sig .tc .vmem S1x128x16x200 .f32) (harg3 : arg3.IsWhole)
    (arg4 : Memref sig .tc .vmem S1x128x8x200 .f32) (harg4 : arg4.IsWhole)
    (arg5 : Memref sig .tc .vmem S1x80x16x192 .f32) (harg5 : arg5.IsWhole)
    (x0 : Vec F S1x128x16x192 .f32) (x1 : Vec F S1x128x16x200 .f32) (x2 : Vec F S1x128x8x200 .f32) (y : S1x80x16x192.Idx) :
    ∃ pc ∈ (kernelRun c i arg2 harg2 arg3 harg3 arg4 harg4 arg5 harg5 x0 x1 x2).1, y ∈ pc.1.set :=
  View.cover_of_tiledL (kernelRun c i arg2 harg2 arg3 harg3 arg4 harg4 arg5 harg5 x0 x1 x2).1 S1x1x16x192.size (by sl_kernel_rfl) y

/-- The result block read back after the pieces are written over anything. -/
def outOf (c : Dev nD) (i : grid0.Coords)
    (arg2 : Memref sig .tc .vmem S1x128x16x192 .f32) (harg2 : arg2.IsWhole)
    (arg3 : Memref sig .tc .vmem S1x128x16x200 .f32) (harg3 : arg3.IsWhole)
    (arg4 : Memref sig .tc .vmem S1x128x8x200 .f32) (harg4 : arg4.IsWhole)
    (arg5 : Memref sig .tc .vmem S1x80x16x192 .f32) (harg5 : arg5.IsWhole)
    (x0 : Vec F S1x128x16x192 .f32) (x1 : Vec F S1x128x16x200 .f32) (x2 : Vec F S1x128x8x200 .f32) : Vec F S1x80x16x192 .f32 :=
  VO.read (Elt F) (VO.writes (Elt F) VO.junk (kernelRun c i arg2 harg2 arg3 harg3 arg4 harg4 arg5 harg5 x0 x1 x2).1)

end Cert.Kernel.Hand

end
-- ==== Proof.LibSharedFrame.lean ====
import Idealize.ShloMosaic.Lib.Pipeline.Frame

noncomputable section

namespace Cert.Lib

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame of a grid program whose input windows may read one array: given the body's triple at every grid point, the program runs to the end and leaves every array it only reads as it was. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := Rounds.initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩; iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.Lib

end
-- ==== Proof.KFrame.lean ====
import proofs.«125151_j9363028706363_1_alg».proof.Proof.KOut
import proofs.«125151_j9363028706363_1_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

theorem V_main_arg0 (c : Dev nD) : V m c main_arg0 = m ((c : Thread nD τ).loc main_arg0) := by
  refine StableHlo.after_of_forall_not_mem (b := Proc.devRef .tc main_arg0) _ _ ?_
  intro op hop
  simp only [hostOps0, hostOps0_1, List.flatten_cons, List.flatten_nil, List.append_nil, List.cons_append,
    List.nil_append, List.mem_cons, List.not_mem_nil, or_false] at hop
  rcases hop with rfl | rfl | rfl <;>
    simp only [StableHlo.nullary_writes, StableHlo.unary_writes, StableHlo.binary_writes, Finset.mem_singleton] <;>
    exact StableHlo.devRef_ne_of_ne (by decide)

theorem V_main_arg1 (c : Dev nD) : V m c main_arg1 = m ((c : Thread nD τ).loc main_arg1) := by
  refine StableHlo.after_of_forall_not_mem (b := Proc.devRef .tc main_arg1) _ _ ?_
  intro op hop
  simp only [hostOps0, hostOps0_1, List.flatten_cons, List.flatten_nil, List.append_nil, List.cons_append,
    List.nil_append, List.mem_cons, List.not_mem_nil, or_false] at hop
  rcases hop with rfl | rfl | rfl <;>
    simp only [StableHlo.nullary_writes, StableHlo.unary_writes, StableHlo.binary_writes, Finset.mem_singleton] <;>
    exact StableHlo.devRef_ne_of_ne (by decide)

theorem V_main_v0 (c : Dev nD) :
    V m c main_v0 = pad S8x128x136x200 ![0, 0, 4, 4] ![0, 0, 4, 4] ![0, 0, 0, 0] (m ((c : Thread nD τ).loc main_arg1))
      (sitofp .f32 (constantI S_ 32 0#32)) pads_S8x128x128x192_S8x128x136x200_000_000_440_440 h_S_ := by
  dsimp only [V]
  simp only [hostOps0, hostOps0_1, List.flatten_cons, List.flatten_nil, List.append_nil, List.cons_append,
    List.nil_append]
  after_results
  rfl

def inAt (c : Dev nD) (w : Fin cfg0.W) (t : Fin cfg0.N) : (cfg0.win w).block.Idx → Elt F (cfg0.win w).elt :=
  (cfg0.win w).fill (cfg0.grid.coords t) (fun _ => Classical.arbitrary _)
    (((cfg0.win w).blk t).view.read (Elt F) (V m c (Pipeline.arrRef spec0 w)))

abbrev ms0 (t : Fin cfg0.N) : Memref sig .tc .vmem S1x128x16x192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x16x200 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x8x200 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x80x16x192 .f32 := win0_3.stage (cfg0.slots t 3)
abbrev hs3 (t : Fin cfg0.N) : (ms3 t).IsWhole := hstage0_3 ((cfg0.slots t 3).cast nbuf0_3)

def outAt (c : Dev nD) (t : Fin cfg0.N) : Vec F S1x80x16x192 .f32 :=
  outOf c (grid0.coords t) (ms0 t) (hs0 t) (ms1 t) (hs1 t) (ms2 t) (hs2 t) (ms3 t) (hs3 t) (inAt m c 0 t) (inAt m c 1 t) (inAt m c 2 t)

/-- What each window holds at each grid point: the inputs' blocks as launched, the result block as the body leaves it. -/
def dats (_ : Fin 1) (c : Dev nD) : Dat τ (Elt F) Unit ℕ (UR sig nD τ) ℕ cfg0 c where
  A w := V m c (Pipeline.arrRef spec0 w)
  after w t := match w with
    | ⟨0, _⟩ => inAt m c 0 t
    | ⟨1, _⟩ => inAt m c 1 t
    | ⟨2, _⟩ => inAt m c 2 t
    | ⟨3, _⟩ => outAt m c t
  Φ _ := Pipeline.scopedRest spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = inAt m c 0 t := by dsimp only [dats]
theorem after1 (c : Dev nD) (t : Fin cfg0.N) : (dats m 0 c).after 1 t = inAt m c 1 t := by dsimp only [dats]
theorem after2 (c : Dev nD) (t : Fin cfg0.N) : (dats m 0 c).after 2 t = inAt m c 2 t := by dsimp only [dats]
theorem after3 (c : Dev nD) (t : Fin cfg0.N) : (dats m 0 c).after 3 t = outAt m c t := by dsimp only [dats]

theorem clip_none : ∀ (w : Fin cfg0.W) (i : cfg0.grid.Coords) (a : Fin (cfg0.win w).shape.rank), (cfg0.win w).clip i a = none := by
  intro w
  match w with
  | ⟨0, _⟩ => exact fun _ _ => rfl
  | ⟨1, _⟩ => exact (by decide +kernel : ∀ (i : grid0.Coords) (a : Fin 4), win0_1.clip i a = none)
  | ⟨2, _⟩ => exact fun _ _ => rfl
  | ⟨3, _⟩ => exact fun _ _ => rfl

theorem before0 (c : Dev nD) (t : Fin cfg0.N) (d) : (dats m 0 c).before 0 t d = inAt m c 0 t := by
  rw [(dats m 0 c).before_fetched 0 t (fetch0_0 t) d]
  unfold Dat.fetched Dat.blockOf inAt
  rw [A_eq]
  exact Pipeline.fill_of_clip_none 0 _ (clip_none 0 _) _ _ _
theorem before1 (c : Dev nD) (t : Fin cfg0.N) (d) : (dats m 0 c).before 1 t d = inAt m c 1 t := by
  rw [(dats m 0 c).before_fetched 1 t (fetch0_1 t) d]
  unfold Dat.fetched Dat.blockOf inAt
  rw [A_eq]
  exact Pipeline.fill_of_clip_none 1 _ (clip_none 1 _) _ _ _
theorem before2 (c : Dev nD) (t : Fin cfg0.N) (d) : (dats m 0 c).before 2 t d = inAt m c 2 t := by
  rw [(dats m 0 c).before_fetched 2 t (fetch0_2 t) d]
  unfold Dat.fetched Dat.blockOf inAt
  rw [A_eq]
  exact Pipeline.fill_of_clip_none 2 _ (clip_none 2 _) _ _ _

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem inv_eq (c : Dev nD) :
    (Pipeline.scopedRest spec0 c : sProp 𝕄) = iprop(∃ d, owns (c : Thread nD τ) scM fullShare d) := by
  rw [scopedRest0_eq]; simp only [scM, owns_whole]; rfl

/-- The body's triple at grid point `t`, from the single run above. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    show (dats m 0 c).Φ t.castSucc = (Pipeline.scopedRest spec0 c : sProp 𝕄) from rfl,
    after0, after1, after2, after3, inv_eq]
  unfold outAt outOf
  iintro ⟨HΦ, Ho, ⟨%d0, H0⟩, ⟨%d1, H1⟩, ⟨%d2, H2⟩, ⟨%d3, H3⟩⟩
  iapply ((kernelRun c (grid0.coords t) _ _ _ _ _ _ _ _ (inAt m c 0 t) (inAt m c 1 t) (inAt m c 2 t)).2 Set.univ _)
  isplitl [H0]; · iexact H0
  isplitl [H1]; · iexact H1
  isplitl [H2]; · iexact H2
  isplitl [H3]; · iexists _; iexact H3
  isplitl [HΦ]; · iexact HΦ
  iintro ⟨H0, H1, H2, ⟨%e3, H3⟩, HΦ⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3 c _ _ _ _ _ _ _ _ _ _ _ _)

theorem body_obligation_exact (c : Dev nD) : BodyObligation (dats (F := F) m 0 c) (defs₀ (F := F)) Variants.none () Set.univ := fun t => by
  rw [bigSep_W0, bigSep_W0]
  exact sound_body m c t

theorem body_obligation (c : Dev nD) : Pipeline.BodyObligationLoose (dats (F := F) m 0 c) (defs₀ (F := F)) Variants.none () Set.univ :=
  (body_obligation_exact m c).loose

theorem arrays_dealt (c : Dev nD) :
    (Pipeline.arrBufs spec0 c (V m c) : sProp 𝕄) ⊢ (dats m 0 c).arrays ((dats m 0 c).arrAt · 0) := by

  have hL : (Pipeline.arrBufs spec0 c (V m c) : sProp 𝕄)
      = iprop((((c : Thread nD τ).loc main_arg0) ↦{fullShare} V m c main_arg0)
          ∗ (((c : Thread nD τ).loc main_v0) ↦{fullShare} V m c main_v0)
          ∗ (((c : Thread nD τ).loc main_v1) ↦{fullShare} V m c main_v1)) :=
    bigSep_eq_bigSepL_of_eq [main_arg0, main_v0, main_v1] (by decide) (by decide) _

  have ha : ∀ w, (dats m 0 c).arrAt w 0 = V m c (Pipeline.arrRef spec0 w) := fun w => A_eq m c w
  have hs0 : (dats m 0 c).share 0 = fullShare := rfl
  have hs1 : (dats m 0 c).share 1 = fullShare.left := rfl
  have hs2 : (dats m 0 c).share 2 = fullShare.right := rfl
  have hs3 : (dats m 0 c).share 3 = fullShare := rfl
  rw [hL]
  unfold Dat.arrays
  rw [bigSep_W0]
  simp only [ha, hs0, hs1, hs2, hs3, View.set_whole]
  iintro ⟨H0, Hv0, Hv1⟩

  ihave Hs := (pointsTo_share (PosShare.mem_left_op_right fullShare)).1 $$ Hv0
  icases Hs with ⟨Hl, Hr⟩
  isplitl [H0]; · iexact H0
  isplitl [Hl]; · iexact Hl
  isplitl [Hr]; · iexact Hr
  iexact Hv1

theorem run_main : θ_run defs (onTc (τ := τ) (main (F := F))) (s₀ m ρ) (Pipeline.FramePost cfgs (dats m) 0 (V m)) :=
  Cert.Lib.θ_run_frame_shared cfgs (dats m) (0 : Fin 1) cellOf_inj winFacts₀0 block_pos0 arr_whole0 stage_whole0
    defs₀ Variants.none m ρ main (fun c => body_obligation m c) (fun _ _ => rfl) (V m) (hmain m Variants.none)
    (arrays_dealt m) (fun _ _ => rfl)

/-- The frame: every weakly fair execution terminates with the two inputs unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.Kernel.Hand

end
-- ==== Proof.KiRun.lean ====
import proofs.«125151_j9363028706363_1_alg».proof.Proof.Gen.KernelIdeal.Launch
import proofs.«125151_j9363028706363_1_alg».proof.Proof.Gen.KernelIdeal.Skeleton
import proofs.«125151_j9363028706363_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev scM : Memref sig .tc .vmem S128x24x200 .f32 := Memref.whole cc0_scratch0

set_option maxHeartbeats 4000000 in

/-- The body run once on whole blocks: it keeps its three input blocks and leaves the result block as a list of written pieces. -/
noncomputable def kernelRun (c : Dev nD) (i : grid0.Coords)
    (arg2 : Memref sig .tc .vmem S1x128x16x192 .f32) (harg2 : arg2.IsWhole)
    (arg3 : Memref sig .tc .vmem S1x128x16x200 .f32) (harg3 : arg3.IsWhole)
    (arg4 : Memref sig .tc .vmem S1x128x8x200 .f32) (harg4 : arg4.IsWhole)
    (arg5 : Memref sig .tc .vmem S1x80x16x192 .f32) (harg5 : arg5.IsWhole)
    (x0 : Vec F S1x128x16x192 .f32) (x1 : Vec F S1x128x16x200 .f32) (x2 : Vec F S1x128x8x200 .f32) :
    { L3 : List (View.Piece (Elt F) S1x80x16x192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) scM fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) scM fullShare d)) -∗ K ⟨⟩))
          ⊢ wp frame (wpE (defs₀ (F := F)) Variants.none c none) E (cc0_kernel i arg2 harg2 arg3 harg3 arg4 harg4 arg5 harg5 scM (Memref.isWhole_whole _)) K } := by
  refine ⟨?_, fun E K => ?run⟩
  case run =>
    simp only [cc0_kernel_eq_skeleton]; unfold cc0_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexists _; isplitr
    swap; · iexact HS
    ipureintro; rfl

end Cert.KernelIdeal.Hand

end
-- ==== Proof.KiOut.lean ====
import proofs.«125151_j9363028706363_1_alg».proof.Proof.KiRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

abbrev VO : View sig .tc .vmem S1x80x16x192 .f32 := (Memref.whole cc0_stg3_0 : Memref sig .tc .vmem S1x80x16x192 .f32).view

/-- The eighty pieces, one [1, 1, 16, 192] plane per displacement, tile the result block. -/
theorem cover3 (c : Dev nD) (i : grid0.Coords)
    (arg2 : Memref sig .tc .vmem S1x128x16x192 .f32) (harg2 : arg2.IsWhole)
    (arg3 : Memref sig .tc .vmem S1x128x16x200 .f32) (harg3 : arg3.IsWhole)
    (arg4 : Memref sig .tc .vmem S1x128x8x200 .f32) (harg4 : arg4.IsWhole)
    (arg5 : Memref sig .tc .vmem S1x80x16x192 .f32) (harg5 : arg5.IsWhole)
    (x0 : Vec F S1x128x16x192 .f32) (x1 : Vec F S1x128x16x200 .f32) (x2 : Vec F S1x128x8x200 .f32) (y : S1x80x16x192.Idx) :
    ∃ pc ∈ (kernelRun c i arg2 harg2 arg3 harg3 arg4 harg4 arg5 harg5 x0 x1 x2).1, y ∈ pc.1.set :=
  View.cover_of_tiledL (kernelRun c i arg2 harg2 arg3 harg3 arg4 harg4 arg5 harg5 x0 x1 x2).1 S1x1x16x192.size (by sl_kernel_rfl) y

/-- The result block read back after the pieces are written over anything. -/
def outOf (c : Dev nD) (i : grid0.Coords)
    (arg2 : Memref sig .tc .vmem S1x128x16x192 .f32) (harg2 : arg2.IsWhole)
    (arg3 : Memref sig .tc .vmem S1x128x16x200 .f32) (harg3 : arg3.IsWhole)
    (arg4 : Memref sig .tc .vmem S1x128x8x200 .f32) (harg4 : arg4.IsWhole)
    (arg5 : Memref sig .tc .vmem S1x80x16x192 .f32) (harg5 : arg5.IsWhole)
    (x0 : Vec F S1x128x16x192 .f32) (x1 : Vec F S1x128x16x200 .f32) (x2 : Vec F S1x128x8x200 .f32) : Vec F S1x80x16x192 .f32 :=
  VO.read (Elt F) (VO.writes (Elt F) VO.junk (kernelRun c i arg2 harg2 arg3 harg3 arg4 harg4 arg5 harg5 x0 x1 x2).1)

end Cert.KernelIdeal.Hand

end
-- ==== Proof.KiFrame.lean ====
import proofs.«125151_j9363028706363_1_alg».proof.Proof.KiOut
import proofs.«125151_j9363028706363_1_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

theorem V_main_arg0 (c : Dev nD) : V m c main_arg0 = m ((c : Thread nD τ).loc main_arg0) := by
  refine StableHlo.after_of_forall_not_mem (b := Proc.devRef .tc main_arg0) _ _ ?_
  intro op hop
  simp only [hostOps0, hostOps0_1, List.flatten_cons, List.flatten_nil, List.append_nil, List.cons_append,
    List.nil_append, List.mem_cons, List.not_mem_nil, or_false] at hop
  rcases hop with rfl | rfl | rfl <;>
    simp only [StableHlo.nullary_writes, StableHlo.unary_writes, StableHlo.binary_writes, Finset.mem_singleton] <;>
    exact StableHlo.devRef_ne_of_ne (by decide)

theorem V_main_arg1 (c : Dev nD) : V m c main_arg1 = m ((c : Thread nD τ).loc main_arg1) := by
  refine StableHlo.after_of_forall_not_mem (b := Proc.devRef .tc main_arg1) _ _ ?_
  intro op hop
  simp only [hostOps0, hostOps0_1, List.flatten_cons, List.flatten_nil, List.append_nil, List.cons_append,
    List.nil_append, List.mem_cons, List.not_mem_nil, or_false] at hop
  rcases hop with rfl | rfl | rfl <;>
    simp only [StableHlo.nullary_writes, StableHlo.unary_writes, StableHlo.binary_writes, Finset.mem_singleton] <;>
    exact StableHlo.devRef_ne_of_ne (by decide)

theorem V_main_v0 (c : Dev nD) :
    V m c main_v0 = pad S8x128x136x200 ![0, 0, 4, 4] ![0, 0, 4, 4] ![0, 0, 0, 0] (m ((c : Thread nD τ).loc main_arg1))
      (sitofp .f32 (constantI S_ 32 0#32)) pads_S8x128x128x192_S8x128x136x200_000_000_440_440 h_S_ := by
  dsimp only [V]
  simp only [hostOps0, hostOps0_1, List.flatten_cons, List.flatten_nil, List.append_nil, List.cons_append,
    List.nil_append]
  after_results
  rfl

def inAt (c : Dev nD) (w : Fin cfg0.W) (t : Fin cfg0.N) : (cfg0.win w).block.Idx → Elt F (cfg0.win w).elt :=
  (cfg0.win w).fill (cfg0.grid.coords t) (fun _ => Classical.arbitrary _)
    (((cfg0.win w).blk t).view.read (Elt F) (V m c (Pipeline.arrRef spec0 w)))

abbrev ms0 (t : Fin cfg0.N) : Memref sig .tc .vmem S1x128x16x192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x16x200 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x8x200 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x80x16x192 .f32 := win0_3.stage (cfg0.slots t 3)
abbrev hs3 (t : Fin cfg0.N) : (ms3 t).IsWhole := hstage0_3 ((cfg0.slots t 3).cast nbuf0_3)

def outAt (c : Dev nD) (t : Fin cfg0.N) : Vec F S1x80x16x192 .f32 :=
  outOf c (grid0.coords t) (ms0 t) (hs0 t) (ms1 t) (hs1 t) (ms2 t) (hs2 t) (ms3 t) (hs3 t) (inAt m c 0 t) (inAt m c 1 t) (inAt m c 2 t)

/-- What each window holds at each grid point: the inputs' blocks as launched, the result block as the body leaves it. -/
def dats (_ : Fin 1) (c : Dev nD) : Dat τ (Elt F) Unit ℕ (UR sig nD τ) ℕ cfg0 c where
  A w := V m c (Pipeline.arrRef spec0 w)
  after w t := match w with
    | ⟨0, _⟩ => inAt m c 0 t
    | ⟨1, _⟩ => inAt m c 1 t
    | ⟨2, _⟩ => inAt m c 2 t
    | ⟨3, _⟩ => outAt m c t
  Φ _ := Pipeline.scopedRest spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = inAt m c 0 t := by dsimp only [dats]
theorem after1 (c : Dev nD) (t : Fin cfg0.N) : (dats m 0 c).after 1 t = inAt m c 1 t := by dsimp only [dats]
theorem after2 (c : Dev nD) (t : Fin cfg0.N) : (dats m 0 c).after 2 t = inAt m c 2 t := by dsimp only [dats]
theorem after3 (c : Dev nD) (t : Fin cfg0.N) : (dats m 0 c).after 3 t = outAt m c t := by dsimp only [dats]

theorem clip_none : ∀ (w : Fin cfg0.W) (i : cfg0.grid.Coords) (a : Fin (cfg0.win w).shape.rank), (cfg0.win w).clip i a = none := by
  intro w
  match w with
  | ⟨0, _⟩ => exact fun _ _ => rfl
  | ⟨1, _⟩ => exact (by decide +kernel : ∀ (i : grid0.Coords) (a : Fin 4), win0_1.clip i a = none)
  | ⟨2, _⟩ => exact fun _ _ => rfl
  | ⟨3, _⟩ => exact fun _ _ => rfl

theorem before0 (c : Dev nD) (t : Fin cfg0.N) (d) : (dats m 0 c).before 0 t d = inAt m c 0 t := by
  rw [(dats m 0 c).before_fetched 0 t (fetch0_0 t) d]
  unfold Dat.fetched Dat.blockOf inAt
  rw [A_eq]
  exact Pipeline.fill_of_clip_none 0 _ (clip_none 0 _) _ _ _
theorem before1 (c : Dev nD) (t : Fin cfg0.N) (d) : (dats m 0 c).before 1 t d = inAt m c 1 t := by
  rw [(dats m 0 c).before_fetched 1 t (fetch0_1 t) d]
  unfold Dat.fetched Dat.blockOf inAt
  rw [A_eq]
  exact Pipeline.fill_of_clip_none 1 _ (clip_none 1 _) _ _ _
theorem before2 (c : Dev nD) (t : Fin cfg0.N) (d) : (dats m 0 c).before 2 t d = inAt m c 2 t := by
  rw [(dats m 0 c).before_fetched 2 t (fetch0_2 t) d]
  unfold Dat.fetched Dat.blockOf inAt
  rw [A_eq]
  exact Pipeline.fill_of_clip_none 2 _ (clip_none 2 _) _ _ _

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem inv_eq (c : Dev nD) :
    (Pipeline.scopedRest spec0 c : sProp 𝕄) = iprop(∃ d, owns (c : Thread nD τ) scM fullShare d) := by
  rw [scopedRest0_eq]; simp only [scM, owns_whole]; rfl

/-- The body's triple at grid point `t`, from the single run above. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    show (dats m 0 c).Φ t.castSucc = (Pipeline.scopedRest spec0 c : sProp 𝕄) from rfl,
    after0, after1, after2, after3, inv_eq]
  unfold outAt outOf
  iintro ⟨HΦ, Ho, ⟨%d0, H0⟩, ⟨%d1, H1⟩, ⟨%d2, H2⟩, ⟨%d3, H3⟩⟩
  iapply ((kernelRun c (grid0.coords t) _ _ _ _ _ _ _ _ (inAt m c 0 t) (inAt m c 1 t) (inAt m c 2 t)).2 Set.univ _)
  isplitl [H0]; · iexact H0
  isplitl [H1]; · iexact H1
  isplitl [H2]; · iexact H2
  isplitl [H3]; · iexists _; iexact H3
  isplitl [HΦ]; · iexact HΦ
  iintro ⟨H0, H1, H2, ⟨%e3, H3⟩, HΦ⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3 c _ _ _ _ _ _ _ _ _ _ _ _)

theorem body_obligation_exact (c : Dev nD) : BodyObligation (dats (F := F) m 0 c) (defs₀ (F := F)) Variants.none () Set.univ := fun t => by
  rw [bigSep_W0, bigSep_W0]
  exact sound_body m c t

theorem body_obligation (c : Dev nD) : Pipeline.BodyObligationLoose (dats (F := F) m 0 c) (defs₀ (F := F)) Variants.none () Set.univ :=
  (body_obligation_exact m c).loose

theorem arrays_dealt (c : Dev nD) :
    (Pipeline.arrBufs spec0 c (V m c) : sProp 𝕄) ⊢ (dats m 0 c).arrays ((dats m 0 c).arrAt · 0) := by

  have hL : (Pipeline.arrBufs spec0 c (V m c) : sProp 𝕄)
      = iprop((((c : Thread nD τ).loc main_arg0) ↦{fullShare} V m c main_arg0)
          ∗ (((c : Thread nD τ).loc main_v0) ↦{fullShare} V m c main_v0)
          ∗ (((c : Thread nD τ).loc main_v1) ↦{fullShare} V m c main_v1)) :=
    bigSep_eq_bigSepL_of_eq [main_arg0, main_v0, main_v1] (by decide) (by decide) _

  have ha : ∀ w, (dats m 0 c).arrAt w 0 = V m c (Pipeline.arrRef spec0 w) := fun w => A_eq m c w
  have hs0 : (dats m 0 c).share 0 = fullShare := rfl
  have hs1 : (dats m 0 c).share 1 = fullShare.left := rfl
  have hs2 : (dats m 0 c).share 2 = fullShare.right := rfl
  have hs3 : (dats m 0 c).share 3 = fullShare := rfl
  rw [hL]
  unfold Dat.arrays
  rw [bigSep_W0]
  simp only [ha, hs0, hs1, hs2, hs3, View.set_whole]
  iintro ⟨H0, Hv0, Hv1⟩

  ihave Hs := (pointsTo_share (PosShare.mem_left_op_right fullShare)).1 $$ Hv0
  icases Hs with ⟨Hl, Hr⟩
  isplitl [H0]; · iexact H0
  isplitl [Hl]; · iexact Hl
  isplitl [Hr]; · iexact Hr
  iexact Hv1

theorem run_main : θ_run defs (onTc (τ := τ) (main (F := F))) (s₀ m ρ) (Pipeline.FramePost cfgs (dats m) 0 (V m)) :=
  Cert.Lib.θ_run_frame_shared cfgs (dats m) (0 : Fin 1) cellOf_inj winFacts₀0 block_pos0 arr_whole0 stage_whole0
    defs₀ Variants.none m ρ main (fun c => body_obligation m c) (fun _ _ => rfl) (V m) (hmain m Variants.none)
    (arrays_dealt m) (fun _ _ => rfl)

/-- The frame: every weakly fair execution terminates with the two inputs unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨4, ![8, 128, 128, 192]⟩

abbrev SP : Shape := ⟨4, ![8, 128, 136, 200]⟩

abbrev SO : Shape := ⟨4, ![8, 80, 128, 192]⟩

def winPos (d : Nat) : Nat := if d < 40 then d else d + 1

def rowOff (d : Nat) : Nat := winPos d / 9

def colOff (d : Nat) : Nat := winPos d % 9

theorem rowOff_le {d : Nat} (h : d < 80) : rowOff d ≤ 8 := by
  unfold rowOff winPos; split <;> omega
theorem colOff_le (d : Nat) : colOff d ≤ 8 := by
  unfold colOff; omega

abbrev scale : EReal := Ideal.ofBits .f32 0x3DB504F3#32

def corrAt (X : FVec Ideal SX .f32) (P : FVec Ideal SP .f32) (b : Fin 8) (d : Fin 80) (h : Fin 128) (w : Fin 192) : EReal :=
  (∑ c : Fin 128, X (ix4 b c h w)
      * P (ix4 b c (⟨h.val + rowOff d.val, by have := rowOff_le d.isLt; omega⟩ : Fin 136)
                   (⟨w.val + colOff d.val, by have := colOff_le d.val; omega⟩ : Fin 200))) * scale

def corr (X : FVec Ideal SX .f32) (P : FVec Ideal SP .f32) : FVec Ideal SO .f32 :=
  fun j => corrAt X P (j 0) (j 1) (j 2) (j 3)

theorem corr_apply (X : FVec Ideal SX .f32) (P : FVec Ideal SP .f32) (b : Fin 8) (d : Fin 80) (h : Fin 128) (w : Fin 192) :
    corr X P (ix4 b d h w) = corrAt X P b d h w := rfl

end Cert.Spec

end
-- ==== Proof.KiPieces.lean ====
import proofs.«125151_j9363028706363_1_alg».proof.Proof.KiOut
import proofs.«125151_j9363028706363_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.WholeRead
import Idealize.ShloMosaic.Lib.WritesUnit

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.Tactic Idealize.ShloMosaic.ValueIdx
open Idealize.SL Idealize.SL.Sem

/-- The 24-row window the body assembles: rows 0..15 from the main block, rows 16..23 from the halo block. -/
def winOf (x1 : Vec Ideal S1x128x16x200 .f32) (x2 : Vec Ideal S1x128x8x200 .f32) (ch : Fin 128) (ρ : Fin 24) (κ : Fin 200) : EReal :=
  if h : ρ.val < 16 then x1 (ix4 (0 : Fin 1) ch (⟨ρ.val, h⟩ : Fin 16) κ) else x2 (ix4 (0 : Fin 1) ch (⟨ρ.val - 16, by have := ρ.isLt; omega⟩ : Fin 8) κ)

/-- One displacement's piece: the channel sum of the first block times a displaced 16-row sub-window, scaled. -/
def pieceVal (X : FVec Ideal S128x16x192 .f32) (W : Vec Ideal S128x16x192 .f32) : FVec Ideal S1x1x16x192 .f32 :=
  shapeCast S1x1x16x192
    (mulf (multiReduction .add [0] S16x192 (mulf X W) 0x00000000#32 reduces_S128x16x192_S16x192 (.inl rfl) rfl)
      (broadcast S16x192 (Scalar.ofBits (F := Ideal) .f32 0x3DB504F3#32)))
    shapeCasts_S16x192_S1x1x16x192

theorem lift_ix2 (r : Fin 16) (w : Fin 192) (ch : Fin 128) :
    reduces_S128x16x192_S16x192.lift (ix2 r w) ch = ix3 ch r w := by
  funext a
  match a with
  | ⟨0, _⟩ => exact Fin.ext rfl
  | ⟨1, _⟩ => exact Fin.ext rfl
  | ⟨2, _⟩ => exact Fin.ext rfl

theorem pieceVal_apply (X : FVec Ideal S128x16x192 .f32) (W : Vec Ideal S128x16x192 .f32) (u v : Fin 1) (r : Fin 16) (w : Fin 192) :
    pieceVal X W (ix4 u v r w) = (∑ ch : Fin 128, X (ix3 ch r w) * W (ix3 ch r w)) * scale := by
  unfold pieceVal
  refine (shapeCast_apply _ shapeCasts_S16x192_S1x1x16x192 (ix4 u v r w) (ix2 r w) (by
    have hu : u.val = 0 := by omega
    have hv : v.val = 0 := by omega
    rw [Shape.rowMajor_val_four, Shape.rowMajor_val_two]
    show r.val * 192 + w.val = ((u.val * 1 + v.val) * 16 + r.val) * 192 + w.val
    omega)).trans ?_
  refine (mulf_apply _ _ _).trans ?_
  refine congrArg₂ (· * ·) ?_ rfl
  refine (Ideal.multiReduction_add_single (mulf X W) _ reduces_S128x16x192_S16x192 (.inl rfl) rfl (ix2 r w)).trans ?_
  refine Finset.sum_congr rfl fun ch _ => ?_
  exact (congrArg (mulf X W) (lift_ix2 r w ch)).trans rfl

theorem whole_idx4 {n0 n1 n2 n3 : Nat} (inb : ∀ a, (![0, 0, 0, 0] : Fin 4 → Nat) a + (![n0, n1, n2, n3] : Fin 4 → Nat) a ≤ (⟨4, ![n0, n1, n2, n3]⟩ : Shape).size a)
    (a : Fin n0) (b : Fin n1) (c : Fin n2) (d : Fin n3) :
    (Rect.unit (s := ⟨4, ![n0, n1, n2, n3]⟩) ![0, 0, 0, 0] ![n0, n1, n2, n3] inb).toLoadRect.idx (ix4 a b c d) = ix4 a b c d := by
  funext e
  match e with
  | ⟨0, _⟩ => exact Fin.ext (by show 0 + 1 * a.val = a.val; omega)
  | ⟨1, _⟩ => exact Fin.ext (by show 0 + 1 * b.val = b.val; omega)
  | ⟨2, _⟩ => exact Fin.ext (by show 0 + 1 * c.val = c.val; omega)
  | ⟨3, _⟩ => exact Fin.ext (by show 0 + 1 * d.val = d.val; omega)

def xIn (arg2 : Memref sig .tc .vmem S1x128x16x192 .f32) (harg2 : arg2.IsWhole) (x0 : Vec Ideal S1x128x16x192 .f32) :
    FVec Ideal S128x16x192 .f32 :=
  k0_pay5 (View.readAt (Elt Ideal) arg2.view
    (Rect.unit ![0, 0, 0, 0] S1x128x16x192.size inb_S1x128x16x192_S1x128x16x192_0_0_0_0).toLoadRect (harg2.unread x0))

theorem xIn_apply (arg2 : Memref sig .tc .vmem S1x128x16x192 .f32) (harg2 : arg2.IsWhole) (x0 : Vec Ideal S1x128x16x192 .f32)
    (ch : Fin 128) (r : Fin 16) (w : Fin 192) : xIn arg2 harg2 x0 (ix3 ch r w) = x0 (ix4 (0 : Fin 1) ch r w) := by
  unfold xIn k0_pay5
  refine (shapeCast_1abc_abc_apply _ shapeCasts_S1x128x16x192_S128x16x192 ch r w).trans ?_
  refine (harg2.readAt_unread x0 _ _).trans ?_
  exact congrArg x0 (whole_idx4 _ (0 : Fin 1) ch r w)

def scrL (arg3 : Memref sig .tc .vmem S1x128x16x200 .f32) (harg3 : arg3.IsWhole)
    (arg4 : Memref sig .tc .vmem S1x128x8x200 .f32) (harg4 : arg4.IsWhole)
    (x1 : Vec Ideal S1x128x16x200 .f32) (x2 : Vec Ideal S1x128x8x200 .f32) : List (View.Piece (Elt Ideal) S128x24x200 .f32) :=
  [⟨Rect.unit ![0, 16, 0] S128x8x200.size inb_S128x24x200_S128x8x200_0_16_0,
      k0_pay4 (View.readAt (Elt Ideal) arg4.view
        (Rect.unit ![0, 0, 0, 0] S1x128x8x200.size inb_S1x128x8x200_S1x128x8x200_0_0_0_0).toLoadRect (harg4.unread x2))⟩,
    ⟨Rect.unit ![0, 0, 0] S128x16x200.size inb_S128x24x200_S128x16x200_0_0_0,
      k0_pay3 (View.readAt (Elt Ideal) arg3.view
        (Rect.unit ![0, 0, 0, 0] S1x128x16x200.size inb_S1x128x16x200_S1x128x16x200_0_0_0_0).toLoadRect (harg3.unread x1))⟩]

theorem pay3_apply (arg3 : Memref sig .tc .vmem S1x128x16x200 .f32) (harg3 : arg3.IsWhole) (x1 : Vec Ideal S1x128x16x200 .f32)
    (ch : Fin 128) (ρ : Fin 16) (κ : Fin 200) :
    k0_pay3 (View.readAt (Elt Ideal) arg3.view
        (Rect.unit ![0, 0, 0, 0] S1x128x16x200.size inb_S1x128x16x200_S1x128x16x200_0_0_0_0).toLoadRect (harg3.unread x1)) (ix3 ch ρ κ)
      = x1 (ix4 (0 : Fin 1) ch ρ κ) := by
  unfold k0_pay3
  refine (congrFun (shapeCast_self _ shapeCasts_S128x16x200_S128x16x200) _).trans ?_
  refine (shapeCast_1abc_abc_apply _ shapeCasts_S1x128x16x200_S128x16x200 ch ρ κ).trans ?_
  refine (harg3.readAt_unread x1 _ _).trans ?_
  exact congrArg x1 (whole_idx4 _ (0 : Fin 1) ch ρ κ)

theorem pay4_apply (arg4 : Memref sig .tc .vmem S1x128x8x200 .f32) (harg4 : arg4.IsWhole) (x2 : Vec Ideal S1x128x8x200 .f32)
    (ch : Fin 128) (ρ : Fin 8) (κ : Fin 200) :
    k0_pay4 (View.readAt (Elt Ideal) arg4.view
        (Rect.unit ![0, 0, 0, 0] S1x128x8x200.size inb_S1x128x8x200_S1x128x8x200_0_0_0_0).toLoadRect (harg4.unread x2)) (ix3 ch ρ κ)
      = x2 (ix4 (0 : Fin 1) ch ρ κ) := by
  unfold k0_pay4
  refine (congrFun (shapeCast_self _ shapeCasts_S128x8x200_S128x8x200) _).trans ?_
  refine (shapeCast_1abc_abc_apply _ shapeCasts_S1x128x8x200_S128x8x200 ch ρ κ).trans ?_
  refine (harg4.readAt_unread x2 _ _).trans ?_
  exact congrArg x2 (whole_idx4 _ (0 : Fin 1) ch ρ κ)

/-- Reading the scratch after the two copies gives that window. -/
theorem scr_read (arg3 : Memref sig .tc .vmem S1x128x16x200 .f32) (harg3 : arg3.IsWhole)
    (arg4 : Memref sig .tc .vmem S1x128x8x200 .f32) (harg4 : arg4.IsWhole)
    (x1 : Vec Ideal S1x128x16x200 .f32) (x2 : Vec Ideal S1x128x8x200 .f32) (ch : Fin 128) (ρ : Fin 24) (κ : Fin 200) :
    scM.view.read (Elt Ideal) (scM.view.writes (Elt Ideal) scM.view.junk (scrL arg3 harg3 arg4 harg4 x1 x2)) (ix3 ch ρ κ)
      = winOf x1 x2 ch ρ κ := by
  unfold scrL winOf
  by_cases h : ρ.val < 16
  · rw [dif_pos h]
    refine (View.read_writes_cons_unit_of_not_mem scM.view scM.view.junk inb_S128x24x200_S128x8x200_0_16_0 _ _
      (ix3 ch ρ κ) rfl (1 : Fin 3) (Or.inl (show ρ.val < 16 from h))).trans ?_
    refine (View.read_writes_cons_unit_of_mem scM.view scM.view.junk inb_S128x24x200_S128x16x200_0_0_0 _ []
      (ix3 ch ρ κ) (ix3 ch (⟨ρ.val, h⟩ : Fin 16) κ) rfl (fun a => ?_)).trans ?_
    · match a with
      | ⟨0, _⟩ => show ch.val = 0 + ch.val; omega
      | ⟨1, _⟩ => show ρ.val = 0 + ρ.val; omega
      | ⟨2, _⟩ => show κ.val = 0 + κ.val; omega
    · exact pay3_apply arg3 harg3 x1 ch ⟨ρ.val, h⟩ κ
  · rw [dif_neg h]
    refine (View.read_writes_cons_unit_of_mem scM.view scM.view.junk inb_S128x24x200_S128x8x200_0_16_0 _ _
      (ix3 ch ρ κ) (ix3 ch (⟨ρ.val - 16, by have := ρ.isLt; omega⟩ : Fin 8) κ) rfl (fun a => ?_)).trans ?_
    · match a with
      | ⟨0, _⟩ => show ch.val = 0 + ch.val; omega
      | ⟨1, _⟩ => show ρ.val = 16 + (ρ.val - 16); omega
      | ⟨2, _⟩ => show κ.val = 0 + κ.val; omega
    · exact pay4_apply arg4 harg4 x2 ch ⟨ρ.val - 16, by have := ρ.isLt; omega⟩ κ

theorem ld_apply (arg3 : Memref sig .tc .vmem S1x128x16x200 .f32) (harg3 : arg3.IsWhole)
    (arg4 : Memref sig .tc .vmem S1x128x8x200 .f32) (harg4 : arg4.IsWhole)
    (x1 : Vec Ideal S1x128x16x200 .f32) (x2 : Vec Ideal S1x128x8x200 .f32) (ro co : Nat) (hro : ro ≤ 8) (hco : co ≤ 8)
    (inb : ∀ a, (![0, ro, co] : Fin 3 → Nat) a + (![128, 16, 192] : Fin 3 → Nat) a ≤ S128x24x200.size a)
    (ch : Fin 128) (r : Fin 16) (w : Fin 192) :
    scM.view.readCov (scrL arg3 harg3 arg4 harg4 x1 x2) (Rect.unit (s := S128x24x200) (![0, ro, co] : Fin 3 → Nat) (![128, 16, 192] : Fin 3 → Nat) inb).toLoadRect (ix3 ch r w)
      = winOf x1 x2 ch (⟨r.val + ro, by omega⟩ : Fin 24) (⟨w.val + co, by omega⟩ : Fin 200) := by
  have hidx : (Rect.unit (s := S128x24x200) (![0, ro, co] : Fin 3 → Nat) (![128, 16, 192] : Fin 3 → Nat) inb).toLoadRect.idx (ix3 ch r w)
      = ix3 ch (⟨r.val + ro, by omega⟩ : Fin 24) (⟨w.val + co, by omega⟩ : Fin 200) := by
    funext a
    match a with
    | ⟨0, _⟩ => exact Fin.ext (by show 0 + 1 * ch.val = ch.val; omega)
    | ⟨1, _⟩ => exact Fin.ext (by show ro + 1 * r.val = r.val + ro; omega)
    | ⟨2, _⟩ => exact Fin.ext (by show co + 1 * w.val = w.val + co; omega)
  show scM.view.read (Elt Ideal) (scM.view.writes (Elt Ideal) scM.view.junk (scrL arg3 harg3 arg4 harg4 x1 x2))
      ((Rect.unit (s := S128x24x200) (![0, ro, co] : Fin 3 → Nat) (![128, 16, 192] : Fin 3 → Nat) inb).toLoadRect.idx (ix3 ch r w)) = _
  rw [hidx]
  exact scr_read arg3 harg3 arg4 harg4 x1 x2 ch _ _

def outEntry (x0 : Vec Ideal S1x128x16x192 .f32) (x1 : Vec Ideal S1x128x16x200 .f32) (x2 : Vec Ideal S1x128x8x200 .f32)
    (d : Fin 80) (r : Fin 16) (w : Fin 192) : EReal :=
  (∑ ch : Fin 128, x0 (ix4 (0 : Fin 1) ch r w)
      * winOf x1 x2 ch (⟨r.val + rowOff d.val, by have := rowOff_le d.isLt; omega⟩ : Fin 24)
          (⟨w.val + colOff d.val, by have := colOff_le d.val; omega⟩ : Fin 200)) * scale

def outG (x0 : Vec Ideal S1x128x16x192 .f32) (x1 : Vec Ideal S1x128x16x200 .f32) (x2 : Vec Ideal S1x128x8x200 .f32) :
    S1x80x16x192.Idx → EReal := fun y => outEntry x0 x1 x2 (y 1) (y 2) (y 3)

theorem piece_eq (arg2 : Memref sig .tc .vmem S1x128x16x192 .f32) (harg2 : arg2.IsWhole)
    (arg3 : Memref sig .tc .vmem S1x128x16x200 .f32) (harg3 : arg3.IsWhole)
    (arg4 : Memref sig .tc .vmem S1x128x8x200 .f32) (harg4 : arg4.IsWhole)
    (x0 : Vec Ideal S1x128x16x192 .f32) (x1 : Vec Ideal S1x128x16x200 .f32) (x2 : Vec Ideal S1x128x8x200 .f32)
    (d : Nat) (hd : d < 80)
    (inbO : ∀ a, (![0, d, 0, 0] : Fin 4 → Nat) a + (![1, 1, 16, 192] : Fin 4 → Nat) a ≤ S1x80x16x192.size a)
    (inbS : ∀ a, (![0, rowOff d, colOff d] : Fin 3 → Nat) a + (![128, 16, 192] : Fin 3 → Nat) a ≤ S128x24x200.size a)
    (pay : FVec Ideal S1x1x16x192 .f32)
    (hpay : pay = pieceVal (xIn arg2 harg2 x0)
      (scM.view.readCov (scrL arg3 harg3 arg4 harg4 x1 x2) (Rect.unit (s := S128x24x200) (![0, rowOff d, colOff d] : Fin 3 → Nat) (![128, 16, 192] : Fin 3 → Nat) inbS).toLoadRect))
    (x : (Rect.unit (s := S1x80x16x192) (![0, d, 0, 0] : Fin 4 → Nat) (![1, 1, 16, 192] : Fin 4 → Nat) inbO).shape.Idx) :
    pay x = outG x0 x1 x2 ((Rect.unit (s := S1x80x16x192) (![0, d, 0, 0] : Fin 4 → Nat) (![1, 1, 16, 192] : Fin 4 → Nat) inbO).emb x) := by
  subst hpay
  obtain ⟨u, v, r, w, rfl⟩ : ∃ (u v : Fin 1) (r : Fin 16) (w : Fin 192), x = ix4 u v r w := ⟨_, _, _, _, eq_ix4 x⟩
  have hemb : (Rect.unit (s := S1x80x16x192) (![0, d, 0, 0] : Fin 4 → Nat) (![1, 1, 16, 192] : Fin 4 → Nat) inbO).emb (ix4 u v r w)
      = ix4 (0 : Fin 1) (⟨d, hd⟩ : Fin 80) r w := by
    funext a
    match a with
    | ⟨0, _⟩ => exact Fin.ext (by show 0 + 1 * u.val = 0; omega)
    | ⟨1, _⟩ => exact Fin.ext (by show d + 1 * v.val = d; omega)
    | ⟨2, _⟩ => exact Fin.ext (by show 0 + 1 * r.val = r.val; omega)
    | ⟨3, _⟩ => exact Fin.ext (by show 0 + 1 * w.val = w.val; omega)
  rw [hemb]
  refine (pieceVal_apply _ _ u v r w).trans ?_
  show _ = outEntry x0 x1 x2 (⟨d, hd⟩ : Fin 80) r w
  unfold outEntry
  refine congrArg₂ (· * ·) (Finset.sum_congr rfl fun ch _ => ?_) rfl
  exact congrArg₂ (· * ·) (xIn_apply arg2 harg2 x0 ch r w)
    (ld_apply arg3 harg3 arg4 harg4 x1 x2 (rowOff d) (colOff d) (rowOff_le hd) (colOff_le d) inbS ch r w)

theorem pieces_eq (c : Dev nD) (i : grid0.Coords)
    (arg2 : Memref sig .tc .vmem S1x128x16x192 .f32) (harg2 : arg2.IsWhole)
    (arg3 : Memref sig .tc .vmem S1x128x16x200 .f32) (harg3 : arg3.IsWhole)
    (arg4 : Memref sig .tc .vmem S1x128x8x200 .f32) (harg4 : arg4.IsWhole)
    (arg5 : Memref sig .tc .vmem S1x80x16x192 .f32) (harg5 : arg5.IsWhole)
    (x0 : Vec Ideal S1x128x16x192 .f32) (x1 : Vec Ideal S1x128x16x200 .f32) (x2 : Vec Ideal S1x128x8x200 .f32) :
    ∀ p ∈ (kernelRun (F := Ideal) c i arg2 harg2 arg3 harg3 arg4 harg4 arg5 harg5 x0 x1 x2).1,
      ∀ x : p.1.shape.Idx, p.2 x = outG x0 x1 x2 (p.1.emb x) := by
  unfold kernelRun
  dsimp only
  sl_unfold_run_names
  iterate 80 (refine List.forall_mem_cons.mpr ⟨fun x => piece_eq arg2 harg2 arg3 harg3 arg4 harg4 x0 x1 x2 _ (by decide) (by decide) (by decide) _ rfl x, ?_⟩)
  exact fun _ h => absurd h List.not_mem_nil

/-- Entry (d, r, w) of the result block: the channel sum at the offsets of displacement `d`. -/
theorem outOf_apply (c : Dev nD) (i : grid0.Coords)
    (arg2 : Memref sig .tc .vmem S1x128x16x192 .f32) (harg2 : arg2.IsWhole)
    (arg3 : Memref sig .tc .vmem S1x128x16x200 .f32) (harg3 : arg3.IsWhole)
    (arg4 : Memref sig .tc .vmem S1x128x8x200 .f32) (harg4 : arg4.IsWhole)
    (arg5 : Memref sig .tc .vmem S1x80x16x192 .f32) (harg5 : arg5.IsWhole)
    (x0 : Vec Ideal S1x128x16x192 .f32) (x1 : Vec Ideal S1x128x16x200 .f32) (x2 : Vec Ideal S1x128x8x200 .f32)
    (d : Fin 80) (r : Fin 16) (w : Fin 192) :
    outOf (F := Ideal) c i arg2 harg2 arg3 harg3 arg4 harg4 arg5 harg5 x0 x1 x2 (ix4 (0 : Fin 1) d r w)
      = (∑ ch : Fin 128, x0 (ix4 (0 : Fin 1) ch r w)
          * winOf x1 x2 ch (⟨r.val + rowOff d.val, by have := rowOff_le d.isLt; omega⟩ : Fin 24)
              (⟨w.val + colOff d.val, by have := colOff_le d.val; omega⟩ : Fin 200)) * scale := by
  unfold outOf
  rw [View.read_writes_junk_eq_canon]
  exact View.canon_apply_of_pieces (outG x0 x1 x2) _
    (pieces_eq c i arg2 harg2 arg3 harg3 arg4 harg4 arg5 harg5 x0 x1 x2) (ix4 (0 : Fin 1) d r w)
    (cover3 c i arg2 harg2 arg3 harg3 arg4 harg4 arg5 harg5 x0 x1 x2 _)

end Cert.KernelIdeal.Hand

end
-- ==== Proof.KiValue.lean ====
import proofs.«125151_j9363028706363_1_alg».proof.Proof.KiFrame
import proofs.«125151_j9363028706363_1_alg».proof.Proof.KiPieces
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

namespace Value

/-- Grid point `t` is batch `t / 8`, row tile `t % 8`; the halo window's block index counts 8-row blocks. -/
theorem idx_facts : ∀ t : Fin cfg0.N,
    win0_3.index t (0 : Fin 4) = t.val / 8 ∧ win0_3.index t (1 : Fin 4) = 0 ∧ win0_3.index t (2 : Fin 4) = t.val % 8 ∧ win0_3.index t (3 : Fin 4) = 0
    ∧ win0_0.index t (0 : Fin 4) = t.val / 8 ∧ win0_0.index t (1 : Fin 4) = 0 ∧ win0_0.index t (2 : Fin 4) = t.val % 8 ∧ win0_0.index t (3 : Fin 4) = 0
    ∧ win0_1.index t (0 : Fin 4) = t.val / 8 ∧ win0_1.index t (1 : Fin 4) = 0 ∧ win0_1.index t (2 : Fin 4) = t.val % 8 ∧ win0_1.index t (3 : Fin 4) = 0
    ∧ win0_2.index t (0 : Fin 4) = t.val / 8 ∧ win0_2.index t (1 : Fin 4) = 0 ∧ win0_2.index t (2 : Fin 4) = 2 * (t.val % 8 + 1) ∧ win0_2.index t (3 : Fin 4) = 0 :=
  (by decide +kernel : ∀ t : Fin grid0.N, _)

theorem in0_apply (c : Dev nD) (t : Fin cfg0.N) (j : S1x128x16x192.Idx) (k : S8x128x128x192.Idx)
    (h0 : (k 0).val = t.val / 8) (h1 : (k 1).val = (j 1).val) (h2 : (k 2).val = 16 * (t.val % 8) + (j 2).val) (h3 : (k 3).val = (j 3).val) :
    (inAt m c 0 t : Vec Ideal S1x128x16x192 .f32) j = (V m c main_arg0 : S8x128x128x192.Idx → Elt Ideal .f32) k := by
  have hm : (cfg0.win 0).moved (grid0.coords t) j = true :=
    ((cfg0.win 0).moved_iff _ j).mpr fun a => by have := (j a).isLt; unfold Window.xsize; rw [clip_none 0 _ a]; exact this
  obtain ⟨-, -, -, -, e0, e1, e2, e3, -⟩ := idx_facts t
  unfold inAt Window.fill
  rw [dif_pos hm, View.read_apply]
  show V m c main_arg0 _ = V m c main_arg0 k
  congr 1
  funext a
  apply Fin.ext
  have hj0 : (j 0).val < 1 := (j 0).isLt
  match a with
  | ⟨0, _⟩ => show win0_0.index t (0 : Fin 4) * 1 + 1 * (j 0).val = (k 0).val; omega
  | ⟨1, _⟩ => show win0_0.index t (1 : Fin 4) * 128 + 1 * (j 1).val = (k 1).val; omega
  | ⟨2, _⟩ => show win0_0.index t (2 : Fin 4) * 16 + 1 * (j 2).val = (k 2).val; omega
  | ⟨3, _⟩ => show win0_0.index t (3 : Fin 4) * 192 + 1 * (j 3).val = (k 3).val; omega

theorem in1_apply (c : Dev nD) (t : Fin cfg0.N) (j : S1x128x16x200.Idx) (k : S8x128x136x200.Idx)
    (h0 : (k 0).val = t.val / 8) (h1 : (k 1).val = (j 1).val) (h2 : (k 2).val = 16 * (t.val % 8) + (j 2).val) (h3 : (k 3).val = (j 3).val) :
    (inAt m c 1 t : Vec Ideal S1x128x16x200 .f32) j = (V m c main_v0 : S8x128x136x200.Idx → Elt Ideal .f32) k := by
  have hm : (cfg0.win 1).moved (grid0.coords t) j = true :=
    ((cfg0.win 1).moved_iff _ j).mpr fun a => by have := (j a).isLt; unfold Window.xsize; rw [clip_none 1 _ a]; exact this
  obtain ⟨-, -, -, -, -, -, -, -, e0, e1, e2, e3, -⟩ := idx_facts t
  unfold inAt Window.fill
  rw [dif_pos hm, View.read_apply]
  show V m c main_v0 _ = V m c main_v0 k
  congr 1
  funext a
  apply Fin.ext
  have hj0 : (j 0).val < 1 := (j 0).isLt
  match a with
  | ⟨0, _⟩ => show win0_1.index t (0 : Fin 4) * 1 + 1 * (j 0).val = (k 0).val; omega
  | ⟨1, _⟩ => show win0_1.index t (1 : Fin 4) * 128 + 1 * (j 1).val = (k 1).val; omega
  | ⟨2, _⟩ => show win0_1.index t (2 : Fin 4) * 16 + 1 * (j 2).val = (k 2).val; omega
  | ⟨3, _⟩ => show win0_1.index t (3 : Fin 4) * 200 + 1 * (j 3).val = (k 3).val; omega

theorem in2_apply (c : Dev nD) (t : Fin cfg0.N) (j : S1x128x8x200.Idx) (k : S8x128x136x200.Idx)
    (h0 : (k 0).val = t.val / 8) (h1 : (k 1).val = (j 1).val) (h2 : (k 2).val = 16 * (t.val % 8) + 16 + (j 2).val) (h3 : (k 3).val = (j 3).val) :
    (inAt m c 2 t : Vec Ideal S1x128x8x200 .f32) j = (V m c main_v0 : S8x128x136x200.Idx → Elt Ideal .f32) k := by
  have hm : (cfg0.win 2).moved (grid0.coords t) j = true :=
    ((cfg0.win 2).moved_iff _ j).mpr fun a => by have := (j a).isLt; unfold Window.xsize; rw [clip_none 2 _ a]; exact this
  obtain ⟨-, -, -, -, -, -, -, -, -, -, -, -, e0, e1, e2, e3⟩ := idx_facts t
  unfold inAt Window.fill
  rw [dif_pos hm, View.read_apply]
  show V m c main_v0 _ = V m c main_v0 k
  congr 1
  funext a
  apply Fin.ext
  have hj0 : (j 0).val < 1 := (j 0).isLt
  match a with
  | ⟨0, _⟩ => show win0_2.index t (0 : Fin 4) * 1 + 1 * (j 0).val = (k 0).val; omega
  | ⟨1, _⟩ => show win0_2.index t (1 : Fin 4) * 128 + 1 * (j 1).val = (k 1).val; omega
  | ⟨2, _⟩ => show win0_2.index t (2 : Fin 4) * 8 + 1 * (j 2).val = (k 2).val; omega
  | ⟨3, _⟩ => show win0_2.index t (3 : Fin 4) * 200 + 1 * (j 3).val = (k 3).val; omega

theorem win_apply (c : Dev nD) (t : Fin cfg0.N) (ch : Fin 128) (q : Fin 24) (κ : Fin 200) (k : S8x128x136x200.Idx)
    (h0 : (k 0).val = t.val / 8) (h1 : (k 1).val = ch.val) (h2 : (k 2).val = 16 * (t.val % 8) + q.val) (h3 : (k 3).val = κ.val) :
    winOf (inAt m c 1 t) (inAt m c 2 t) ch q κ = (V m c main_v0 : S8x128x136x200.Idx → Elt Ideal .f32) k := by
  unfold winOf
  split
  · exact in1_apply m c t _ k h0 h1 h2 h3
  · next hq =>
    refine in2_apply m c t _ k h0 h1 ?_ h3
    show (k 2).val = 16 * (t.val % 8) + 16 + (q.val - 16)
    omega

/-- What point `t` leaves in its result block is the specification restricted to that block. -/
theorem out_apply (c : Dev nD) (t : Fin cfg0.N) (j : S1x80x16x192.Idx) (k : S8x80x128x192.Idx)
    (h0 : (k 0).val = t.val / 8) (h1 : (k 1).val = (j 1).val) (h2 : (k 2).val = 16 * (t.val % 8) + (j 2).val) (h3 : (k 3).val = (j 3).val) :
    outAt m c t j = corr (V m c main_arg0) (V m c main_v0) k := by
  obtain ⟨d, r, w, rfl⟩ : ∃ (d : Fin 80) (r : Fin 16) (w : Fin 192), j = ix4 (0 : Fin 1) d r w :=
    ⟨j 1, j 2, j 3, funext fun a => match a with
      | ⟨0, _⟩ => Fin.ext (by have h : (j 0).val < 1 := (j 0).isLt; show (j 0).val = 0; omega)
      | ⟨1, _⟩ => rfl
      | ⟨2, _⟩ => rfl
      | ⟨3, _⟩ => rfl⟩
  have h1' : (k 1).val = d.val := h1
  have h2' : (k 2).val = 16 * (t.val % 8) + r.val := h2
  have h3' : (k 3).val = w.val := h3
  unfold outAt
  rw [outOf_apply]
  show _ = corrAt (V m c main_arg0) (V m c main_v0) (k 0) (k 1) (k 2) (k 3)
  unfold corrAt
  refine congrArg₂ _ ?_ rfl
  refine Finset.sum_congr rfl fun ch _ => ?_
  refine congrArg₂ _ (in0_apply m c t _ _ h0 rfl h2' h3') (win_apply m c t ch _ _ _ h0 rfl ?_ ?_)
  · show (k 2).val + rowOff (k 1).val = 16 * (t.val % 8) + (r.val + rowOff d.val)
    rw [h1', h2']; omega
  · show (k 3).val + colOff (k 1).val = w.val + colOff d.val
    rw [h1', h3']

theorem flushed_eq (c : Dev nD) (t : Fin cfg0.N) :
    (dats m 0 c).flushed 3 t = ((cfg0.win 3).blk t).view.read (Elt Ideal) (corr (V m c main_arg0) (V m c main_v0)) := by
  show (cfg0.win 3).cut (grid0.coords t) ((dats m 0 c).after 3 t) = _
  rw [after3]
  obtain ⟨e0, e1, e2, e3, -⟩ := idx_facts t
  funext j
  show outAt m c t ((cfg0.win 3).xinj (grid0.coords t) j) = corr (V m c main_arg0) (V m c main_v0) (((cfg0.win 3).blk t).view.emb j)
  have hj0 : (j 0).val < 1 := (j 0).isLt
  refine out_apply m c t _ _ ?_ ?_ ?_ ?_
  · show win0_3.index t (0 : Fin 4) * 1 + 1 * (j 0).val = t.val / 8; omega
  · show win0_3.index t (1 : Fin 4) * 80 + 1 * (j 1).val = (j 1).val; omega
  · show win0_3.index t (2 : Fin 4) * 16 + 1 * (j 2).val = 16 * (t.val % 8) + (j 2).val; omega
  · show win0_3.index t (3 : Fin 4) * 192 + 1 * (j 3).val = (j 3).val; omega

theorem mem_blk3 (t : Fin cfg0.N) (i : S8x80x128x192.Idx) :
    i ∈ ((cfg0.win 3).blk t).view.set ↔ ∀ a : Fin 4, win0_3.index t a * S1x80x16x192.size a ≤ (i a).val ∧ (i a).val < win0_3.index t a * S1x80x16x192.size a + S1x80x16x192.size a := by
  show i ∈ ((View.whole main_v1).slice (win0_3.rect t)).set ↔ _
  rw [View.set_slice_whole, Rect.mem_set_unit]
  exact Iff.rfl

/-- The 64 result blocks cover the result array. -/
theorem blocks_cover (i : S8x80x128x192.Idx) : ∃ t : Fin cfg0.N, (cfg0.win 3).flush t = true ∧ i ∈ ((cfg0.win 3).blk t).view.set := by
  have hi0 : (i 0).val < 8 := (i 0).isLt
  have hi1 : (i 1).val < 80 := (i 1).isLt
  have hi2 : (i 2).val < 128 := (i 2).isLt
  have hi3 : (i 3).val < 192 := (i 3).isLt
  let t : Fin cfg0.N := ⟨8 * (i 0).val + (i 2).val / 16, lt_of_lt_of_eq (by omega : 8 * (i 0).val + (i 2).val / 16 < 64) N_0.symm⟩
  have htv : t.val = 8 * (i 0).val + (i 2).val / 16 := rfl
  obtain ⟨e0, e1, e2, e3, -⟩ := idx_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 80 ≤ (i 1).val ∧ (i 1).val < win0_3.index t (1 : Fin 4) * 80 + 80; omega
  | ⟨2, _⟩ => show win0_3.index t (2 : Fin 4) * 16 ≤ (i 2).val ∧ (i 2).val < win0_3.index t (2 : Fin 4) * 16 + 16; omega
  | ⟨3, _⟩ => show win0_3.index t (3 : Fin 4) * 192 ≤ (i 3).val ∧ (i 3).val < win0_3.index t (3 : Fin 4) * 192 + 192; omega

end Value

open Value

theorem final3 (c : Dev nD) :
    (dats (F := Ideal) m 0 c).arrAt 3 cfg0.N = corr (V m c main_arg0) (V m c main_v0) :=
  (dats m 0 c).arrAt_eq_of_cover 3 (corr (V m c main_arg0) (V m c main_v0)) (fun t _ => flushed_eq m c t) blocks_cover

/-- Every weakly fair execution terminates with the result at the specification of the first input and the padded second, and the inputs unchanged. -/
theorem run_value : θ_run defs (onTc (τ := τ) (main (F := Ideal))) ⟨m, fun _ => 0, ρ⟩ (fun r => ∀ c : Dev nD,
      r.2.mem ((c.tc : Thread nD τ).loc main_v1) = corr (m ((c.tc : Thread nD τ).loc main_arg0))
          (pad S8x128x136x200 ![0, 0, 4, 4] ![0, 0, 4, 4] ![0, 0, 0, 0] (m ((c.tc : Thread nD τ).loc main_arg1))
            (sitofp .f32 (constantI S_ 32 0#32)) pads_S8x128x128x192_S8x128x136x200_000_000_440_440 h_S_)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1 3).trans ((final3 m c).trans (by rw [V_main_arg0, V_main_v0])),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Hand

end
-- ==== Proof.RefRun.lean ====
/-
  The reference program's run.  After padding the second input the program does the same seven operations for each of
  the eighty displacements (slice the padded array at the displacement's offset, multiply by the first input, sum over
  the channels from zero, scale), copies each plane into a slab with a unit axis, and joins the slabs sixteen at a time
  and then the five groups.  One displacement's seven operations are stated once, over any buffers, with what they leave;
  the program is that block at the buffers `7 d + 5 … 7 d + 11` for d = 0 … 79, and an induction over d runs it.
-/
import proofs.«125151_j9363028706363_1_alg».proof.Proof.Gen.ReferenceIdeal
import proofs.«125151_j9363028706363_1_alg».proof.Proof.Spec
import Idealize.ShloMosaic.Lib.StableHlo.Run
import Idealize.ShloMosaic.Lib.Pipeline.Frame

noncomputable section

namespace Cert.ReferenceIdeal.Ref

open Cert.ReferenceIdeal Cert.ReferenceIdeal.Gen Cert.Spec Idealize.ShloMosaic Idealize.ShloMosaic.TcCoe Idealize.SL.Sem Idealize.ShloMosaic.StableHlo

variable {F : FTy → Type} [FloatOps F]

abbrev TX : BufTy := ⟨S8x128x128x192, .f32⟩
abbrev TP : BufTy := ⟨S8x128x136x200, .f32⟩
abbrev T3 : BufTy := ⟨S8x128x192, .f32⟩
abbrev T0 : BufTy := ⟨S_, .f32⟩
abbrev T1 : BufTy := ⟨S8x1x128x192, .f32⟩

/-- A window of the first input's shape fits in the padded array at any row and column offset up to 8. -/
theorem slices_of_le {ro co : Nat} (h1 : ro ≤ 8) (h2 : co ≤ 8) : S8x128x136x200.Slices ![0, 0, ro, co] S8x128x128x192 :=
  ⟨rfl, fun a => match a with
    | ⟨0, _⟩ => by show 0 + 8 ≤ 8; omega
    | ⟨1, _⟩ => by show 0 + 128 ≤ 128; omega
    | ⟨2, _⟩ => by show ro + 128 ≤ 136; omega
    | ⟨3, _⟩ => by show co + 192 ≤ 200; omega⟩

/-- One displacement's plane: the padded array's window at offset (ro, co), times the first input, summed over the channels from zero, times the scale. -/
def planeOf (X : TX.Contents (Elt F)) (P : TP.Contents (Elt F)) (ro co : Nat)
    (hs : S8x128x136x200.Slices ![0, 0, ro, co] S8x128x128x192) : T3.Contents (Elt F) :=
  mulf (Host.reduceAdd (mulf X (extractStridedSlice S8x128x128x192 ![0, 0, ro, co] P hs)) (constant S_ .f32 0x00000000#32)
      reducesTo_S8x128x128x192_S8x128x192_d1 h_S_)
    (broadcastInDim (s := S_) S8x128x192 ![] bcast_S_S8x128x192 (constant S_ .f32 0x3DB504F3#32))

/-- The seven operations that compute that plane into `p`, over any buffers of the right types. -/
abbrev planeOps (ro co : Nat) (hs : S8x128x136x200.Slices ![0, 0, ro, co] S8x128x128x192)
    (P : TRef sig TP) (X s m : TRef sig TX) (z k : TRef sig T0) (r kb p : TRef sig T3) : List (HloOp τ sig (Elt F)) :=
  [ TRef.unary P s (extractStridedSlice S8x128x128x192 ![0, 0, ro, co] · hs),
    TRef.binary X s m mulf,
    TRef.nullary z (constant S_ .f32 0x00000000#32),
    TRef.binary m z r (fun x v => Host.reduceAdd x v reducesTo_S8x128x128x192_S8x128x192_d1 h_S_),
    TRef.nullary k (constant S_ .f32 0x3DB504F3#32),
    TRef.unary k kb (broadcastInDim S8x128x192 ![] bcast_S_S8x128x192),
    TRef.binary r kb p mulf ]

theorem ofBuf_toBuf {T : BufTy} (x : TRef sig T) (v : T.Contents (Elt F)) : x.ofBuf (x.toBuf v) = v := by
  simp only [TRef.ofBuf, TRef.toBuf, cast_cast, cast_eq]

/-- Run in order they leave the plane in `p`: each intermediate is read back before anything else of the seven could write it. -/
theorem after_planeOps (ro co : Nat) (hs : S8x128x136x200.Slices ![0, 0, ro, co] S8x128x128x192)
    (P : TRef sig TP) (X s m : TRef sig TX) (z k : TRef sig T0) (r kb p : TRef sig T3) (V : Valuation τ sig (Elt F))
    (h1 : X.ref ≠ s.ref) (h2 : m.ref ≠ z.ref) (h3 : r.ref ≠ k.ref) (h4 : r.ref ≠ kb.ref) :
    p.ofBuf (after (planeOps ro co hs P X s m z k r kb p) V (Proc.devRef .tc p.ref))
      = planeOf (X.ofBuf (V (Proc.devRef .tc X.ref))) (P.ofBuf (V (Proc.devRef .tc P.ref))) ro co hs := by
  simp (disch := assumption) only [planeOps, after_cons, after_nil, nullary_result', unary_result', binary_result',
    nullary_result_ne', unary_result_ne', binary_result_ne', ofBuf_toBuf]
  rfl

/-- They write their own seven buffers and nothing else. -/
theorem after_planeOps_ne (ro co : Nat) (hs : S8x128x136x200.Slices ![0, 0, ro, co] S8x128x128x192)
    (P : TRef sig TP) (X s m : TRef sig TX) (z k : TRef sig T0) (r kb p : TRef sig T3) (V : Valuation τ sig (Elt F))
    {b : Ref sig .tc} (hs' : b ≠ s.ref) (hm : b ≠ m.ref) (hz : b ≠ z.ref) (hr : b ≠ r.ref) (hk : b ≠ k.ref)
    (hkb : b ≠ kb.ref) (hp : b ≠ p.ref) :
    after (planeOps ro co hs P X s m z k r kb p) V (Proc.devRef .tc b) = V (Proc.devRef .tc b) := by
  simp (disch := assumption) only [planeOps, after_cons, after_nil, nullary_result_ne', unary_result_ne', binary_result_ne']

theorem nHbm : sig.nNear .tc .hbm = 651 := rfl
theorem names_all : ∀ i : Fin (sig.nNear .tc .hbm), sig.names .tc .hbm i = true := by decide +kernel
theorem unscoped_all : ∀ i : Fin (sig.nNear .tc .hbm), sig.isScoped (Kind.tc.table .hbm) i = false := by decide +kernel

/-- Buffer number `n`; the program writes them in order, so operation number `k` writes buffer `k + 2`. -/
abbrev buf (n : Nat) (h : n < 651) : Ref sig .tc := ⟨.hbm, ⟨n, nHbm.symm ▸ h⟩, names_all _⟩

theorem buf_ne {a b : Nat} (h : a ≠ b) (ha : a < 651 := by omega) (hb : b < 651 := by omega) : buf a ha ≠ buf b hb :=
  fun e => h (congrArg (fun r : Ref sig .tc => r.idx.val) e)

theorem buf_dev (n : Nat) (h : n < 651) : (buf n h).space ≠ .host := by show Space.hbm ≠ Space.host; decide

abbrev tr {T : BufTy} (n : Nat) (h : n < 651) (hty : (buf n h).ty = T) : TRef sig T := ⟨buf n h, hty, buf_dev n h, unscoped_all _⟩

/-- Displacement `d` owns the buffers `7 d + 5 … 7 d + 11`; their types, decided over all eighty at once. -/
theorem ty_blk : ∀ d : Fin 80, (buf (7 * d.val + 5) (by omega)).ty = TX ∧ (buf (7 * d.val + 6) (by omega)).ty = TX
    ∧ (buf (7 * d.val + 7) (by omega)).ty = T0 ∧ (buf (7 * d.val + 8) (by omega)).ty = T3 ∧ (buf (7 * d.val + 9) (by omega)).ty = T0
    ∧ (buf (7 * d.val + 10) (by omega)).ty = T3 ∧ (buf (7 * d.val + 11) (by omega)).ty = T3 := by decide +kernel

abbrev tX : TRef sig TX := tr 0 (by omega) rfl
abbrev tX1 : TRef sig TX := tr 1 (by omega) rfl
abbrev tP : TRef sig TP := tr 4 (by omega) rfl
abbrev bs (d : Fin 80) : TRef sig TX := tr (7 * d.val + 5) (by omega) (ty_blk d).1
abbrev bm (d : Fin 80) : TRef sig TX := tr (7 * d.val + 6) (by omega) (ty_blk d).2.1
abbrev bz (d : Fin 80) : TRef sig T0 := tr (7 * d.val + 7) (by omega) (ty_blk d).2.2.1
abbrev br (d : Fin 80) : TRef sig T3 := tr (7 * d.val + 8) (by omega) (ty_blk d).2.2.2.1
abbrev bk (d : Fin 80) : TRef sig T0 := tr (7 * d.val + 9) (by omega) (ty_blk d).2.2.2.2.1
abbrev bkb (d : Fin 80) : TRef sig T3 := tr (7 * d.val + 10) (by omega) (ty_blk d).2.2.2.2.2.1
abbrev bp (d : Fin 80) : TRef sig T3 := tr (7 * d.val + 11) (by omega) (ty_blk d).2.2.2.2.2.2

theorem slices_at (d : Fin 80) : S8x128x136x200.Slices ![0, 0, rowOff d.val, colOff d.val] S8x128x128x192 :=
  slices_of_le (rowOff_le d.isLt) (colOff_le d.val)

/-- The seven operations of displacement `d`, at the offsets of its window position. -/
abbrev blockOps (d : Fin 80) : List (HloOp τ sig (Elt F)) :=
  planeOps (rowOff d.val) (colOff d.val) (slices_at d) tP tX (bs d) (bm d) (bz d) (bk d) (br d) (bkb d) (bp d)

def planeAt (x0 : TX.Contents (Elt F)) (Pd : TP.Contents (Elt F)) (d : Fin 80) : T3.Contents (Elt F) :=
  planeOf x0 Pd (rowOff d.val) (colOff d.val) (slices_at d)

theorem block_keep (d : Fin 80) (V : Valuation τ sig (Elt F)) (a : Nat) (ha : a < 651) (h : a < 7 * d.val + 5 ∨ 7 * d.val + 11 < a) :
    after (blockOps d) V (Proc.devRef .tc (buf a ha)) = V (Proc.devRef .tc (buf a ha)) :=
  after_planeOps_ne _ _ _ _ _ _ _ _ _ _ _ _ V (buf_ne (by omega)) (buf_ne (by omega)) (buf_ne (by omega)) (buf_ne (by omega))
    (buf_ne (by omega)) (buf_ne (by omega)) (buf_ne (by omega))

/-- After the first `n` displacements: the two inputs and the padded array as they were, and the first `n` planes in place. -/
def Inv (x0 x1 : TX.Contents (Elt F)) (Pd : TP.Contents (Elt F)) (n : Nat) (V : Valuation τ sig (Elt F)) : Prop :=
  tX.ofBuf (V (Proc.devRef .tc tX.ref)) = x0 ∧ tX1.ofBuf (V (Proc.devRef .tc tX1.ref)) = x1
  ∧ tP.ofBuf (V (Proc.devRef .tc tP.ref)) = Pd
  ∧ ∀ d : Fin 80, d.val < n → (bp d).ofBuf (V (Proc.devRef .tc (bp d).ref)) = planeAt x0 Pd d

/-- Displacement `n` keeps all of that (its buffers come after every earlier plane's) and adds its own plane. -/
theorem step (x0 x1 : TX.Contents (Elt F)) (Pd : TP.Contents (Elt F)) (n : Nat) (hn : n < 80) (V : Valuation τ sig (Elt F))
    (h : Inv x0 x1 Pd n V) : Inv x0 x1 Pd (n + 1) (after (blockOps ⟨n, hn⟩) V) := by
  obtain ⟨hX, hX1, hP, hpl⟩ := h
  refine ⟨(congrArg tX.ofBuf (block_keep ⟨n, hn⟩ V 0 (by omega) (Or.inl (by omega)))).trans hX,
    (congrArg tX1.ofBuf (block_keep ⟨n, hn⟩ V 1 (by omega) (Or.inl (by omega)))).trans hX1,
    (congrArg tP.ofBuf (block_keep ⟨n, hn⟩ V 4 (by omega) (Or.inl (by omega)))).trans hP, fun d hd => ?_⟩
  by_cases hlt : d.val < n
  · exact (congrArg (bp d).ofBuf (block_keep ⟨n, hn⟩ V (7 * d.val + 11) (by omega) (Or.inl (by show 7 * d.val + 11 < 7 * n + 5; omega)))).trans (hpl d hlt)
  · obtain rfl : d = ⟨n, hn⟩ := Fin.ext (by show d.val = n; omega)
    refine (after_planeOps _ _ _ _ _ _ _ _ _ _ _ _ V (buf_ne (by omega)) (buf_ne (by omega)) (buf_ne (by omega)) (buf_ne (by omega))).trans ?_
    rw [hX, hP]; rfl

/-- The displacements `n, n + 1, …, 79`, in order. -/
def blocksFrom : (k n : Nat) → k + n = 80 → List (HloOp τ sig (Elt F))
  | 0, _, _ => []
  | k + 1, n, h => blockOps ⟨n, by omega⟩ ++ blocksFrom k (n + 1) (by omega)

theorem inv_blocks (x0 x1 : TX.Contents (Elt F)) (Pd : TP.Contents (Elt F)) :
    ∀ (k n : Nat) (h : k + n = 80) (V : Valuation τ sig (Elt F)), Inv x0 x1 Pd n V → Inv x0 x1 Pd 80 (after (blocksFrom k n h) V)
  | 0, n, h, V, hV => by
      obtain rfl : n = 80 := by omega
      exact hV
  | k + 1, n, h, V, hV => by
      rw [blocksFrom, after_append]
      exact inv_blocks x0 x1 Pd k (n + 1) (by omega) _ (step x0 x1 Pd n (by omega) V hV)

abbrev T16 : BufTy := ⟨S8x16x128x192, .f32⟩
abbrev T80 : BufTy := ⟨S8x80x128x192, .f32⟩

theorem ty_slab : ∀ d : Fin 80, (buf (565 + d.val) (by omega)).ty = T1 := by decide +kernel

abbrev bsl (d : Fin 80) : TRef sig T1 := tr (565 + d.val) (by omega) (ty_slab d)

/-- Plane `d` copied into buffer `565 + d` with a unit axis put in at position 1. -/
abbrev slabOp (d : Fin 80) : HloOp τ sig (Elt F) :=
  TRef.unary (bp d) (bsl d) (broadcastInDim S8x1x128x192 ![0, 2, 3] bcast_S8x128x192_S8x1x128x192_0_2_3)

def slabsFrom : (k n : Nat) → k + n = 80 → List (HloOp τ sig (Elt F))
  | 0, _, _ => []
  | k + 1, n, h => slabOp ⟨n, by omega⟩ :: slabsFrom k (n + 1) (by omega)

abbrev concatOps : List (HloOp τ sig (Elt F)) :=
  [ nary ![main_v401, main_v402, main_v403, main_v404, main_v405, main_v406, main_v407, main_v408, main_v409, main_v410, main_v411, main_v412, main_v413, main_v414, main_v415, main_v416] main_v481 (fun u => concatenate S8x16x128x192 1 [⟨S8x1x128x192, u 0⟩, ⟨S8x1x128x192, u 1⟩, ⟨S8x1x128x192, u 2⟩, ⟨S8x1x128x192, u 3⟩, ⟨S8x1x128x192, u 4⟩, ⟨S8x1x128x192, u 5⟩, ⟨S8x1x128x192, u 6⟩, ⟨S8x1x128x192, u 7⟩, ⟨S8x1x128x192, u 8⟩, ⟨S8x1x128x192, u 9⟩, ⟨S8x1x128x192, u 10⟩, ⟨S8x1x128x192, u 11⟩, ⟨S8x1x128x192, u 12⟩, ⟨S8x1x128x192, u 13⟩, ⟨S8x1x128x192, u 14⟩, ⟨S8x1x128x192, u 15⟩] concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1),
    nary ![main_v417, main_v418, main_v419, main_v420, main_v421, main_v422, main_v423, main_v424, main_v425, main_v426, main_v427, main_v428, main_v429, main_v430, main_v431, main_v432] main_v482 (fun u => concatenate S8x16x128x192 1 [⟨S8x1x128x192, u 0⟩, ⟨S8x1x128x192, u 1⟩, ⟨S8x1x128x192, u 2⟩, ⟨S8x1x128x192, u 3⟩, ⟨S8x1x128x192, u 4⟩, ⟨S8x1x128x192, u 5⟩, ⟨S8x1x128x192, u 6⟩, ⟨S8x1x128x192, u 7⟩, ⟨S8x1x128x192, u 8⟩, ⟨S8x1x128x192, u 9⟩, ⟨S8x1x128x192, u 10⟩, ⟨S8x1x128x192, u 11⟩, ⟨S8x1x128x192, u 12⟩, ⟨S8x1x128x192, u 13⟩, ⟨S8x1x128x192, u 14⟩, ⟨S8x1x128x192, u 15⟩] concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1),
    nary ![main_v433, main_v434, main_v435, main_v436, main_v437, main_v438, main_v439, main_v440, main_v441, main_v442, main_v443, main_v444, main_v445, main_v446, main_v447, main_v448] main_v483 (fun u => concatenate S8x16x128x192 1 [⟨S8x1x128x192, u 0⟩, ⟨S8x1x128x192, u 1⟩, ⟨S8x1x128x192, u 2⟩, ⟨S8x1x128x192, u 3⟩, ⟨S8x1x128x192, u 4⟩, ⟨S8x1x128x192, u 5⟩, ⟨S8x1x128x192, u 6⟩, ⟨S8x1x128x192, u 7⟩, ⟨S8x1x128x192, u 8⟩, ⟨S8x1x128x192, u 9⟩, ⟨S8x1x128x192, u 10⟩, ⟨S8x1x128x192, u 11⟩, ⟨S8x1x128x192, u 12⟩, ⟨S8x1x128x192, u 13⟩, ⟨S8x1x128x192, u 14⟩, ⟨S8x1x128x192, u 15⟩] concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1),
    nary ![main_v449, main_v450, main_v451, main_v452, main_v453, main_v454, main_v455, main_v456, main_v457, main_v458, main_v459, main_v460, main_v461, main_v462, main_v463, main_v464] main_v484 (fun u => concatenate S8x16x128x192 1 [⟨S8x1x128x192, u 0⟩, ⟨S8x1x128x192, u 1⟩, ⟨S8x1x128x192, u 2⟩, ⟨S8x1x128x192, u 3⟩, ⟨S8x1x128x192, u 4⟩, ⟨S8x1x128x192, u 5⟩, ⟨S8x1x128x192, u 6⟩, ⟨S8x1x128x192, u 7⟩, ⟨S8x1x128x192, u 8⟩, ⟨S8x1x128x192, u 9⟩, ⟨S8x1x128x192, u 10⟩, ⟨S8x1x128x192, u 11⟩, ⟨S8x1x128x192, u 12⟩, ⟨S8x1x128x192, u 13⟩, ⟨S8x1x128x192, u 14⟩, ⟨S8x1x128x192, u 15⟩] concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1),
    nary ![main_v465, main_v466, main_v467, main_v468, main_v469, main_v470, main_v471, main_v472, main_v473, main_v474, main_v475, main_v476, main_v477, main_v478, main_v479, main_v480] main_v485 (fun u => concatenate S8x16x128x192 1 [⟨S8x1x128x192, u 0⟩, ⟨S8x1x128x192, u 1⟩, ⟨S8x1x128x192, u 2⟩, ⟨S8x1x128x192, u 3⟩, ⟨S8x1x128x192, u 4⟩, ⟨S8x1x128x192, u 5⟩, ⟨S8x1x128x192, u 6⟩, ⟨S8x1x128x192, u 7⟩, ⟨S8x1x128x192, u 8⟩, ⟨S8x1x128x192, u 9⟩, ⟨S8x1x128x192, u 10⟩, ⟨S8x1x128x192, u 11⟩, ⟨S8x1x128x192, u 12⟩, ⟨S8x1x128x192, u 13⟩, ⟨S8x1x128x192, u 14⟩, ⟨S8x1x128x192, u 15⟩] concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1),
    nary ![main_v481, main_v482, main_v483, main_v484, main_v485] main_v486 (fun u => concatenate S8x80x128x192 1 [⟨S8x16x128x192, u 0⟩, ⟨S8x16x128x192, u 1⟩, ⟨S8x16x128x192, u 2⟩, ⟨S8x16x128x192, u 3⟩, ⟨S8x16x128x192, u 4⟩] concatenates_S8x16x128x192_S8x16x128x192_S8x16x128x192_S8x16x128x192_S8x16x128x192_S8x80x128x192_d1) ]

abbrev pre : List (HloOp τ sig (Elt F)) :=
  [ nullary main_c (constantI S_ 32 0#32),
    TRef.unary (TRef.of (T := ⟨S_, .i32⟩) main_c) (TRef.of (T := T0) main_call0_v0) (sitofp .f32),
    TRef.binary (TRef.of (T := TX) main_arg1) (TRef.of (T := T0) main_call0_v0) (TRef.of (T := TP) main_v0)
      (fun x v => pad S8x128x136x200 ![0, 0, 4, 4] ![0, 0, 4, 4] ![0, 0, 0, 0] x v pads_S8x128x128x192_S8x128x136x200_000_000_440_440 h_S_) ]

abbrev ops : List (HloOp τ sig (Elt F)) := pre ++ (blocksFrom 80 0 rfl ++ (slabsFrom 80 0 rfl ++ concatOps))

def padded (x1 : TX.Contents (Elt F)) : TP.Contents (Elt F) :=
  pad S8x128x136x200 ![0, 0, 4, 4] ![0, 0, 4, 4] ![0, 0, 0, 0] x1 (sitofp .f32 (constantI S_ 32 0#32))
    pads_S8x128x128x192_S8x128x136x200_000_000_440_440 h_S_

def slabAt (x0 : TX.Contents (Elt F)) (Pd : TP.Contents (Elt F)) (d : Fin 80) : T1.Contents (Elt F) :=
  broadcastInDim S8x1x128x192 ![0, 2, 3] bcast_S8x128x192_S8x1x128x192_0_2_3 (planeAt x0 Pd d)

/-- Sixteen consecutive slabs joined along the unit axis. -/
def groupAt (x0 : TX.Contents (Elt F)) (Pd : TP.Contents (Elt F)) (g : Fin 5) : T16.Contents (Elt F) :=
  concatenate S8x16x128x192 1 (List.ofFn fun m : Fin 16 => ⟨S8x1x128x192, slabAt x0 Pd ⟨16 * g.val + m.val, by omega⟩⟩) concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1

/-- The five groups joined along the same axis: all eighty planes in order. -/
def wholeAt (x0 : TX.Contents (Elt F)) (Pd : TP.Contents (Elt F)) : T80.Contents (Elt F) :=
  concatenate S8x80x128x192 1 (List.ofFn fun g : Fin 5 => ⟨S8x16x128x192, groupAt x0 Pd g⟩) concatenates_S8x16x128x192_S8x16x128x192_S8x16x128x192_S8x16x128x192_S8x16x128x192_S8x80x128x192_d1

theorem slab_keep (d : Fin 80) (V : Valuation τ sig (Elt F)) (a : Nat) (ha : a < 651) (h : a ≠ 565 + d.val) :
    (slabOp d).result V (Proc.devRef .tc (buf a ha)) = V (Proc.devRef .tc (buf a ha)) := by
  simp (disch := exact buf_ne h) only [slabOp, unary_result_ne']

theorem slab_val (d : Fin 80) (V : Valuation τ sig (Elt F)) :
    (bsl d).ofBuf ((slabOp d).result V (Proc.devRef .tc (bsl d).ref))
      = broadcastInDim S8x1x128x192 ![0, 2, 3] bcast_S8x128x192_S8x1x128x192_0_2_3 ((bp d).ofBuf (V (Proc.devRef .tc (bp d).ref))) := by
  simp only [slabOp, unary_result', ofBuf_toBuf]

/-- After the first `n` copies: all eighty planes still in place, and the first `n` slabs. -/
def InvS (x0 x1 : TX.Contents (Elt F)) (Pd : TP.Contents (Elt F)) (n : Nat) (V : Valuation τ sig (Elt F)) : Prop :=
  tX.ofBuf (V (Proc.devRef .tc tX.ref)) = x0 ∧ tX1.ofBuf (V (Proc.devRef .tc tX1.ref)) = x1
  ∧ (∀ d : Fin 80, (bp d).ofBuf (V (Proc.devRef .tc (bp d).ref)) = planeAt x0 Pd d)
  ∧ ∀ d : Fin 80, d.val < n → (bsl d).ofBuf (V (Proc.devRef .tc (bsl d).ref)) = slabAt x0 Pd d

theorem stepS (x0 x1 : TX.Contents (Elt F)) (Pd : TP.Contents (Elt F)) (n : Nat) (hn : n < 80) (V : Valuation τ sig (Elt F))
    (h : InvS x0 x1 Pd n V) : InvS x0 x1 Pd (n + 1) ((slabOp ⟨n, hn⟩).result V) := by
  obtain ⟨hX, hX1, hpl, hsl⟩ := h
  refine ⟨(congrArg tX.ofBuf (slab_keep ⟨n, hn⟩ V 0 (by omega) (by omega))).trans hX,
    (congrArg tX1.ofBuf (slab_keep ⟨n, hn⟩ V 1 (by omega) (by omega))).trans hX1,
    fun d => (congrArg (bp d).ofBuf (slab_keep ⟨n, hn⟩ V (7 * d.val + 11) (by omega) (by show 7 * d.val + 11 ≠ 565 + n; omega))).trans (hpl d),
    fun d hd => ?_⟩
  by_cases hlt : d.val < n
  · exact (congrArg (bsl d).ofBuf (slab_keep ⟨n, hn⟩ V (565 + d.val) (by omega) (by show 565 + d.val ≠ 565 + n; omega))).trans (hsl d hlt)
  · obtain rfl : d = ⟨n, hn⟩ := Fin.ext (by show d.val = n; omega)
    exact (slab_val _ V).trans (by rw [hpl]; rfl)

theorem inv_slabs (x0 x1 : TX.Contents (Elt F)) (Pd : TP.Contents (Elt F)) :
    ∀ (k n : Nat) (h : k + n = 80) (V : Valuation τ sig (Elt F)), InvS x0 x1 Pd n V → InvS x0 x1 Pd 80 (after (slabsFrom k n h) V)
  | 0, n, h, V, hV => by
      obtain rfl : n = 80 := by omega
      exact hV
  | k + 1, n, h, V, hV => by
      rw [slabsFrom, after_cons]
      exact inv_slabs x0 x1 Pd k (n + 1) (by omega) _ (stepS x0 x1 Pd n (by omega) V hV)

/-- The contents of the eighty slab buffers, as one function of the displacement. -/
def slabVals (V : Valuation τ sig (Elt F)) (d : Fin 80) : T1.Contents (Elt F) := (bsl d).ofBuf (V (Proc.devRef .tc (bsl d).ref))

set_option maxRecDepth 8192 in
set_option maxHeartbeats 4000000 in
/-- The six joins read only the slab buffers and earlier joins, so the last one holds all eighty planes joined; the inputs are untouched. -/
theorem concat_val (x0 x1 : TX.Contents (Elt F)) (Pd : TP.Contents (Elt F)) (V : Valuation τ sig (Elt F)) (h : InvS x0 x1 Pd 80 V) :
    after concatOps V (Proc.devRef .tc main_v486) = wholeAt x0 Pd
    ∧ after concatOps V (Proc.devRef .tc main_arg0) = x0 ∧ after concatOps V (Proc.devRef .tc main_arg1) = x1 := by
  obtain ⟨hX, hX1, -, hsl⟩ := h
  have hsl' : slabVals V = slabAt x0 Pd := funext fun d => hsl d d.isLt
  refine ⟨?_, ?_, ?_⟩
  · simp only [concatOps, after_cons, after_nil]
    repeat (first
      | rw [nary_result]
      | (rw [nary_result_ne]; rotate_left; decide)
      | dsimp only [Matrix.cons_val])
    show concatenate S8x80x128x192 1 (List.ofFn fun g : Fin 5 => ⟨S8x16x128x192, concatenate S8x16x128x192 1
        (List.ofFn fun m : Fin 16 => ⟨S8x1x128x192, slabVals V ⟨16 * g.val + m.val, by omega⟩⟩) concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1⟩) concatenates_S8x16x128x192_S8x16x128x192_S8x16x128x192_S8x16x128x192_S8x16x128x192_S8x80x128x192_d1 = _
    rw [hsl']
    rfl
  · simp only [concatOps]; after_results_simp; exact hX
  · simp only [concatOps]; after_results_simp; exact hX1

/-- The whole program, from any contents: the result buffer holds the eighty planes of the first input and the padded second, joined; the inputs are unchanged. -/
theorem value (V : Valuation τ sig (Elt F)) :
    after ops V (Proc.devRef .tc main_v486) = wholeAt (V (Proc.devRef .tc main_arg0)) (padded (V (Proc.devRef .tc main_arg1)))
    ∧ after ops V (Proc.devRef .tc main_arg0) = V (Proc.devRef .tc main_arg0)
    ∧ after ops V (Proc.devRef .tc main_arg1) = V (Proc.devRef .tc main_arg1) := by
  simp only [ops, after_append]
  have h0 : Inv (V (Proc.devRef .tc main_arg0)) (V (Proc.devRef .tc main_arg1)) (padded (V (Proc.devRef .tc main_arg1))) 0 (after pre V) := by
    refine ⟨?_, ?_, ?_, fun d hd => absurd hd (Nat.not_lt_zero _)⟩
    · show after pre V (Proc.devRef .tc main_arg0) = _
      simp only [pre]; after_results_simp
    · show after pre V (Proc.devRef .tc main_arg1) = _
      simp only [pre]; after_results_simp
    · show after pre V (Proc.devRef .tc main_v0) = _
      simp only [pre]; after_results_simp; rfl
  have h1 := inv_blocks _ _ _ 80 0 rfl _ h0
  exact concat_val _ _ _ _ (inv_slabs _ _ _ 80 0 rfl _ ⟨h1.1, h1.2.1, fun d => h1.2.2.2 d d.isLt, fun d hd => absurd hd (Nat.not_lt_zero _)⟩)

def Good (op : HloOp τ sig (Elt F)) : Prop := op.bufs ⊆ tcRefs τ sig ∧ op.fresh = ∅

theorem good_planeOps (ro co : Nat) (hs : S8x128x136x200.Slices ![0, 0, ro, co] S8x128x128x192)
    (P : TRef sig TP) (X s m : TRef sig TX) (z k : TRef sig T0) (r kb p : TRef sig T3) :
    ∀ op ∈ planeOps (F := F) ro co hs P X s m z k r kb p, Good op := by
  intro op h
  simp only [planeOps, List.mem_cons, List.not_mem_nil, or_false] at h
  rcases h with rfl | rfl | rfl | rfl | rfl | rfl | rfl
  exacts [⟨unary_bufs_sub .., rfl⟩, ⟨binary_bufs_sub .., rfl⟩, ⟨nullary_bufs_sub .., rfl⟩, ⟨binary_bufs_sub .., rfl⟩,
    ⟨nullary_bufs_sub .., rfl⟩, ⟨unary_bufs_sub .., rfl⟩, ⟨binary_bufs_sub .., rfl⟩]

theorem good_blocks : ∀ (k n : Nat) (h : k + n = 80), ∀ op ∈ blocksFrom (F := F) k n h, Good op
  | 0, _, _ => fun _ h => by simp only [blocksFrom, List.not_mem_nil] at h
  | k + 1, n, h => fun op hop => by
      rw [blocksFrom, List.mem_append] at hop
      exact hop.elim (good_planeOps _ _ _ _ _ _ _ _ _ _ _ _ op) (good_blocks k (n + 1) (by omega) op)

theorem good_slabs : ∀ (k n : Nat) (h : k + n = 80), ∀ op ∈ slabsFrom (F := F) k n h, Good op
  | 0, _, _ => fun _ h => by simp only [slabsFrom, List.not_mem_nil] at h
  | k + 1, n, h => fun op hop => by
      rw [slabsFrom, List.mem_cons] at hop
      rcases hop with rfl | hop
      · exact ⟨unary_bufs_sub .., rfl⟩
      · exact good_slabs k (n + 1) (by omega) op hop

theorem good_ops : ∀ op ∈ ops (F := F), Good op := by
  intro op h
  simp only [ops, List.mem_append] at h
  rcases h with h | h | h | h
  · simp only [pre, List.mem_cons, List.not_mem_nil, or_false] at h
    rcases h with rfl | rfl | rfl
    exacts [⟨nullary_bufs_sub .., rfl⟩, ⟨unary_bufs_sub .., rfl⟩, ⟨binary_bufs_sub .., rfl⟩]
  · exact good_blocks _ _ _ op h
  · exact good_slabs _ _ _ op h
  · simp only [concatOps, List.mem_cons, List.not_mem_nil, or_false] at h
    rcases h with rfl | rfl | rfl | rfl | rfl | rfl <;> exact ⟨nary_bufs_sub .., rfl⟩

theorem scopedRefs_eq : (Finset.univ.filter fun b : Ref sig .tc => b.isScoped) = ∅ := by decide
theorem scopedSems_eq : (Finset.univ.filter fun sm : SemLoc sig => sm.isScoped .tc) = ∅ := by decide

set_option maxRecDepth 100000 in
set_option maxHeartbeats 200000000 in
/-- The printed program is these 649 operations in order: the pad, eighty blocks of seven, eighty copies, six joins. -/
theorem main_eq (c : Dev nD) : main (F := F) c = seq ops := rfl

/-- Every weakly fair execution of the program ends with the result at the eighty joined planes of the two inputs' contents, and the inputs unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v486)
          = wholeAt (m ((c.tc : Thread nD τ).loc main_arg0)) (padded (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v486).trans (value _).1, (h c main_arg0).trans (value _).2.1, (h c main_arg1).trans (value _).2.2⟩)
    (run_seq scopedRefs_eq scopedSems_eq defs main (fun _ => ops) main_eq
      (fun _ => List.forall_iff_forall_mem.mpr fun op h => (good_ops op h).1) m ρ (fun _ op h => (good_ops op h).2))

end Cert.ReferenceIdeal.Ref

end
-- ==== Proof.RefValue.lean ====
import proofs.«125151_j9363028706363_1_alg».proof.Proof.RefRun
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.Ref

open Cert.ReferenceIdeal Cert.ReferenceIdeal.Gen Cert.Spec
open Idealize.ShloMosaic Idealize.ShloMosaic.TcCoe Idealize.ShloMosaic.ValueIdx Idealize.SL.Sem

-- A plane at a pixel is the channel sum of the first input times the displaced second, scaled: each operation read at an index.
theorem planeOf_apply (X : FVec Ideal SX .f32) (P : FVec Ideal SP .f32) (ro co : Nat) (h1 : ro ≤ 8) (h2 : co ≤ 8)
    (hs : SP.Slices ![0, 0, ro, co] SX) (b : Fin 8) (h : Fin 128) (w : Fin 192) :
    planeOf (F := Ideal) X P ro co hs (ix3 b h w)
      = (∑ c : Fin 128, X (ix4 b c h w)
          * P (ix4 b c (⟨h.val + ro, by omega⟩ : Fin 136) (⟨w.val + co, by omega⟩ : Fin 200))) * scale := by
  unfold planeOf
  show FloatOps.mulf (Host.reduceAdd _ _ reducesTo_S8x128x128x192_S8x128x192_d1 h_S_ (ix3 b h w))
    (broadcastInDim (s := S_) S8x128x192 ![] bcast_S_S8x128x192 _ (ix3 b h w)) = _
  rw [Ideal.mulf_def]
  congr 1
  simp only [Host.reduceAdd, Ideal.hostReduceAdd_def]
  rw [Ideal.hostReduceAdd_single reducesTo_S8x128x128x192_S8x128x192_d1 (by decide)]
  show Ideal.ofBits .f32 0x00000000#32 + _ = _
  rw [Ideal.ofBits_zero_f32, zero_add]
  refine Finset.sum_congr rfl fun c _ => ?_
  show FloatOps.mulf (X _) (extractStridedSlice SX ![0, 0, ro, co] P hs _) = _
  rw [Ideal.mulf_def]
  congr 1
  · exact congrArg X (funext fun a => Fin.ext (by
      match a with | ⟨0, _⟩ => rfl | ⟨1, _⟩ => rfl | ⟨2, _⟩ => rfl | ⟨3, _⟩ => rfl))
  · exact extractStridedSlice_apply _ P hs _ _ (fun a => match a with
      | ⟨0, _⟩ => by show b.val = 0 + b.val; omega
      | ⟨1, _⟩ => by show c.val = 0 + c.val; omega
      | ⟨2, _⟩ => by show h.val + ro = ro + h.val; omega
      | ⟨3, _⟩ => by show w.val + co = co + w.val; omega)

theorem slabAt_apply (X : FVec Ideal SX .f32) (P : FVec Ideal SP .f32) (d : Fin 80) (b : Fin 8) (u : Fin 1) (h : Fin 128)
    (w : Fin 192) : slabAt (F := Ideal) X P d (ix4 b u h w) = planeAt (F := Ideal) X P d (ix3 b h w) := by
  unfold slabAt
  exact broadcastInDim_apply _ bcast_S8x128x192_S8x1x128x192_0_2_3 _ _ _ (fun a => match a with
    | ⟨0, _⟩ => by show b.val = if (8 : Nat) = 1 then 0 else b.val; rw [if_neg (by decide)]
    | ⟨1, _⟩ => by show h.val = if (128 : Nat) = 1 then 0 else h.val; rw [if_neg (by decide)]
    | ⟨2, _⟩ => by show w.val = if (192 : Nat) = 1 then 0 else w.val; rw [if_neg (by decide)])

-- A join of sixteen unit slabs read at an index is the slab its coordinate on the joined axis names.
theorem groupAt_apply (X : FVec Ideal SX .f32) (P : FVec Ideal SP .f32) (g : Fin 5) (b : Fin 8) (m : Fin 16) (h : Fin 128)
    (w : Fin 192) :
    groupAt (F := Ideal) X P g (ix4 b m h w)
      = planeAt (F := Ideal) X P ⟨16 * g.val + m.val, by omega⟩ (ix3 b h w) := by
  unfold groupAt
  rw [concatenate_ofFn_unit_apply (t := S8x16x128x192) (s₁ := S8x1x128x192) (1 : Fin 4)
    (fun m : Fin 16 => slabAt (F := Ideal) X P ⟨16 * g.val + m.val, by omega⟩)
    concatenates_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x1x128x192_S8x16x128x192_d1 rfl rfl (ix4 b m h w) m rfl (ix4 b (0 : Fin 1) h w)
    (fun a ha => match a, ha with
      | ⟨0, _⟩, _ => rfl
      | ⟨1, _⟩, ha => absurd rfl ha
      | ⟨2, _⟩, _ => rfl
      | ⟨3, _⟩, _ => rfl)]
  exact slabAt_apply X P _ b 0 h w

-- A join of five equal groups read at an index: group d / 16, member d % 16.
theorem wholeAt_apply (X : FVec Ideal SX .f32) (P : FVec Ideal SP .f32) (b : Fin 8) (d : Fin 80) (h : Fin 128)
    (w : Fin 192) : wholeAt (F := Ideal) X P (ix4 b d h w) = planeAt (F := Ideal) X P d (ix3 b h w) := by
  have hd := d.isLt
  unfold wholeAt
  rw [concatenate_ofFn_apply (t := S8x80x128x192) (s₁ := S8x16x128x192) (1 : Fin 4)
    (fun g : Fin 5 => groupAt (F := Ideal) X P g)
    concatenates_S8x16x128x192_S8x16x128x192_S8x16x128x192_S8x16x128x192_S8x16x128x192_S8x80x128x192_d1 rfl 16 rfl (ix4 b d h w) (⟨d.val / 16, by omega⟩ : Fin 5) rfl
    (ix4 b (⟨d.val % 16, by omega⟩ : Fin 16) h w) rfl
    (fun a ha => match a, ha with
      | ⟨0, _⟩, _ => rfl
      | ⟨1, _⟩, ha => absurd rfl ha
      | ⟨2, _⟩, _ => rfl
      | ⟨3, _⟩, _ => rfl)]
  rw [groupAt_apply]
  congr 1
  exact Fin.ext (by show 16 * (d.val / 16) + d.val % 16 = d.val; omega)

theorem wholeAt_eq_corr (X : FVec Ideal SX .f32) (P : FVec Ideal SP .f32) : wholeAt (F := Ideal) X P = corr X P := by
  funext j
  obtain ⟨b, d, h, w, rfl⟩ : ∃ b d h w, j = ix4 b d h w := ⟨j 0, j 1, j 2, j 3, eq_ix4 j⟩
  rw [wholeAt_apply, corr_apply]
  unfold planeAt corrAt
  exact planeOf_apply X P _ _ (rowOff_le d.isLt) (colOff_le d.val) _ b h w

end Cert.ReferenceIdeal.Ref

end
-- ==== Proof.lean ====
/-
  A shifted-window correlation against its reference.  Both programs pad the second input Y by four rows and columns of
  zeros on every side (P) and return, for each of the 80 offsets (i, j) in 0..8 x 0..8 other than the centre, the plane
  out (b, d, h, w) = (sum over the 128 channels c of X (b, c, h, w) * P (b, c, h + i, w + j)) * k, with k the same
  single-precision word on both sides.  The reference does seven operations per offset and joins the planes; the kernel
  works on 16-row tiles with an 8-row halo.  Both are read as that sum literally, so nothing about the inputs is used,
  and the padding is the same term on both sides.  The idealization rewrote nothing, so preservation is trivial.
-/
import proofs.«125151_j9363028706363_1_alg».proof.Defs
import proofs.«125151_j9363028706363_1_alg».proof.Proof.Gen.Kernel
import proofs.«125151_j9363028706363_1_alg».proof.Proof.Gen.KernelIdeal
import proofs.«125151_j9363028706363_1_alg».proof.Proof.Gen.ReferenceIdeal
import proofs.«125151_j9363028706363_1_alg».proof.Proof.Gen.Pre_finite_inputs
import proofs.«125151_j9363028706363_1_alg».proof.Proof.KFrame
import proofs.«125151_j9363028706363_1_alg».proof.Proof.KiValue
import proofs.«125151_j9363028706363_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Ref.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Ref.run (F := Ideal) m' ρ')
  rw [Cert.ReferenceIdeal.Ref.wholeAt_eq_corr, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
